-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v222)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v222) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S2x1600000 : Shape := ⟨2, ![2, 1600000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S128x1 .f32) (main_arg12 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg11
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x64 .f32) (main_arg1 : FVec F S64x128 .f32) (main_arg2 : FVec F S128 .f32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) (main_arg13 : IVec S2x1600000 32) (main_arg14 : IVec S2x1600000 32) (main_arg15 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_v13 main_v16
-- ==== Kernel.lean ====
abbrev S50000x64 : Shape := ⟨2, ![50000, 64]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S2x1600000 : Shape := ⟨2, ![2, 1600000]⟩
abbrev S50000 : Shape := ⟨1, ![50000]⟩
abbrev S50000x128 : Shape := ⟨2, ![50000, 128]⟩
abbrev S5000x64 : Shape := ⟨2, ![5000, 64]⟩
abbrev S5000x128 : Shape := ⟨2, ![5000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S64 : Shape := ⟨1, ![64]⟩
abbrev S1x64 : Shape := ⟨2, ![1, 64]⟩
abbrev S64x1 : Shape := ⟨2, ![64, 1]⟩
abbrev S1x1 : Shape := ⟨2, ![1, 1]⟩

abbrev nBuf : Space → Nat
  | .hbm => 289
  | .vmem => 48
  | .smem => 0
  | _ => 0

abbrev hbmTy0_0 (i : Nat) : BufTy := match i % 128 with
  | 0 => ⟨S50000x64, .f32⟩
  | 1 => ⟨S64x128, .f32⟩
  | 2 => ⟨S128, .f32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S2x1600000, .i32⟩
  | 14 => ⟨S2x1600000, .i32⟩
  | 15 => ⟨S50000, .i32⟩
  | 16 => ⟨S50000x128, .f32⟩
  | 17 => ⟨S50000x128, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S50000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S_, .f32⟩
  | 33 => ⟨S1600000, .f32⟩
  | 34 => ⟨S50000, .f32⟩
  | 35 => ⟨S_, .f32⟩
  | 36 => ⟨S50000, .f32⟩
  | 37 => ⟨S50000, .f32⟩
  | 38 => ⟨S50000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000, .f32⟩
  | 66 => ⟨S1600000, .f32⟩
  | 67 => ⟨S1600000x1, .f32⟩
  | 68 => ⟨S1600000x128, .f32⟩
  | 69 => ⟨S1600000x128, .f32⟩
  | 70 => ⟨S_, .f32⟩
  | 71 => ⟨S50000x128, .f32⟩
  | 72 => ⟨S1600000x1, .i32⟩
  | 73 => ⟨S50000x128, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S1x1600000, .i32⟩
  | 80 => ⟨S1600000, .i32⟩
  | 81 => ⟨S1x1600000, .i32⟩
  | 82 => ⟨S1600000, .i32⟩
  | 83 => ⟨S_, .f32⟩
  | 84 => ⟨S50000, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S_, .f32⟩
  | 94 => ⟨S1600000, .f32⟩
  | 95 => ⟨S50000, .f32⟩
  | 96 => ⟨S_, .f32⟩
  | 97 => ⟨S50000, .f32⟩
  | 98 => ⟨S50000, .f32⟩
  | 99 => ⟨S50000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000, .f32⟩
  | 127 => ⟨S1600000, .f32⟩
  | _ => ⟨S50000x64, .f32⟩

abbrev hbmTy0_1 (i : Nat) : BufTy := match i % 128 with
  | 0 => ⟨S1600000x1, .f32⟩
  | 1 => ⟨S1600000x128, .f32⟩
  | 2 => ⟨S1600000x128, .f32⟩
  | 3 => ⟨S_, .f32⟩
  | 4 => ⟨S50000x128, .f32⟩
  | 5 => ⟨S1600000x1, .i32⟩
  | 6 => ⟨S50000x128, .f32⟩
  | 7 => ⟨S50000, .f32⟩
  | 8 => ⟨S50000x1, .f32⟩
  | 9 => ⟨S50000x128, .f32⟩
  | 10 => ⟨S50000x128, .f32⟩
  | 11 => ⟨S50000x128, .f32⟩
  | 12 => ⟨S1x128, .f32⟩
  | 13 => ⟨S1x128, .f32⟩
  | 14 => ⟨S50000x128, .f32⟩
  | 15 => ⟨S50000x128, .f32⟩
  | 16 => ⟨S50000x128, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S50000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S_, .f32⟩
  | 32 => ⟨S1600000, .f32⟩
  | 33 => ⟨S50000, .f32⟩
  | 34 => ⟨S_, .f32⟩
  | 35 => ⟨S50000, .f32⟩
  | 36 => ⟨S50000, .f32⟩
  | 37 => ⟨S50000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000, .f32⟩
  | 65 => ⟨S1600000, .f32⟩
  | 66 => ⟨S1600000x1, .f32⟩
  | 67 => ⟨S1600000x128, .f32⟩
  | 68 => ⟨S1600000x128, .f32⟩
  | 69 => ⟨S_, .f32⟩
  | 70 => ⟨S50000x128, .f32⟩
  | 71 => ⟨S1600000x1, .i32⟩
  | 72 => ⟨S50000x128, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x1600000, .i32⟩
  | 79 => ⟨S1600000, .i32⟩
  | 80 => ⟨S1x1600000, .i32⟩
  | 81 => ⟨S1600000, .i32⟩
  | 82 => ⟨S_, .f32⟩
  | 83 => ⟨S50000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S_, .f32⟩
  | 93 => ⟨S1600000, .f32⟩
  | 94 => ⟨S50000, .f32⟩
  | 95 => ⟨S_, .f32⟩
  | 96 => ⟨S50000, .f32⟩
  | 97 => ⟨S50000, .f32⟩
  | 98 => ⟨S50000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S1600000, .f32⟩
  | 127 => ⟨S1600000x1, .f32⟩
  | _ => ⟨S50000x64, .f32⟩

abbrev hbmTy0_2 (i : Nat) : BufTy := match i % 128 with
  | 0 => ⟨S1600000x128, .f32⟩
  | 1 => ⟨S1600000x128, .f32⟩
  | 2 => ⟨S_, .f32⟩
  | 3 => ⟨S50000x128, .f32⟩
  | 4 => ⟨S1600000x1, .i32⟩
  | 5 => ⟨S50000x128, .f32⟩
  | 6 => ⟨S50000, .f32⟩
  | 7 => ⟨S50000x1, .f32⟩
  | 8 => ⟨S50000x128, .f32⟩
  | 9 => ⟨S50000x128, .f32⟩
  | 10 => ⟨S50000x128, .f32⟩
  | 11 => ⟨S1x128, .f32⟩
  | 12 => ⟨S1x128, .f32⟩
  | 13 => ⟨S50000x128, .f32⟩
  | 14 => ⟨S50000x1, .i32⟩
  | 15 => ⟨S64, .i32⟩
  | 16 => ⟨S1x64, .i32⟩
  | 17 => ⟨S50000x64, .i32⟩
  | 18 => ⟨S50000x64, .i32⟩
  | 19 => ⟨S50000x64, .i1⟩
  | 20 => ⟨S50000x64, .f32⟩
  | 21 => ⟨S_, .f32⟩
  | 22 => ⟨S64, .f32⟩
  | 23 => ⟨S64x128, .f32⟩
  | 24 => ⟨S_, .f32⟩
  | 25 => ⟨S64, .f32⟩
  | 26 => ⟨S64, .f32⟩
  | 27 => ⟨S64x1, .f32⟩
  | 28 => ⟨S64x128, .f32⟩
  | 29 => ⟨S64x128, .f32⟩
  | 30 => ⟨S1x128, .f32⟩
  | 31 => ⟨S1x1, .f32⟩
  | 32 => ⟨S64x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x64, .f32⟩
  | .local _ .vmem, ⟨6, _⟩ => ⟨S5000x64, .f32⟩
  | .local _ .vmem, ⟨7, _⟩ => ⟨S64x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x64, .f32⟩
  | .local _ .vmem, ⟨37, _⟩ => ⟨S5000x64, .f32⟩
  | .local _ .vmem, ⟨38, _⟩ => ⟨S5000x128, .f32⟩
  | .local _ .vmem, ⟨39, _⟩ => ⟨S5000x128, .f32⟩
  | .local _ .vmem, ⟨40, _⟩ => ⟨S64x128, .f32⟩
  | .local _ .vmem, ⟨41, _⟩ => ⟨S64x128, .f32⟩
  | .local _ .vmem, ⟨42, _⟩ => ⟨S64x128, .f32⟩
  | .local _ .vmem, ⟨43, _⟩ => ⟨S128x128, .f32⟩
  | .local _ .vmem, ⟨44, _⟩ => ⟨S1x128, .f32⟩
  | .local _ .vmem, ⟨45, _⟩ => ⟨S128x1, .f32⟩
  | .local _ .vmem, ⟨46, _⟩ => ⟨S1x1, .f32⟩
  | .local _ .vmem, ⟨47, _⟩ => ⟨S64x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_cst_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_17 : Ref sig .tc := ⟨.hbm, 109, rfl⟩
abbrev main_v74 : Ref sig .tc := ⟨.hbm, 110, rfl⟩
abbrev main_v75 : Ref sig .tc := ⟨.hbm, 111, rfl⟩
abbrev main_c_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_19 : Ref sig .tc := ⟨.hbm, 118, rfl⟩
abbrev main_v81 : Ref sig .tc := ⟨.hbm, 119, rfl⟩
abbrev main_v82 : Ref sig .tc := ⟨.hbm, 120, rfl⟩
abbrev main_c_20 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_21 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_22 : Ref sig .tc := ⟨.hbm, 149, rfl⟩
abbrev main_v109 : Ref sig .tc := ⟨.hbm, 150, rfl⟩
abbrev main_c_23 : Ref sig .tc := ⟨.hbm, 151, rfl⟩
abbrev main_v110 : Ref sig .tc := ⟨.hbm, 152, rfl⟩
abbrev main_v111 : Ref sig .tc := ⟨.hbm, 153, rfl⟩
abbrev main_c_24 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_25 : Ref sig .tc := ⟨.hbm, 159, rfl⟩
abbrev main_v116 : Ref sig .tc := ⟨.hbm, 160, rfl⟩
abbrev main_v117 : Ref sig .tc := ⟨.hbm, 161, rfl⟩
abbrev main_cst_26 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_27 : Ref sig .tc := ⟨.hbm, 166, rfl⟩
abbrev main_v121 : Ref sig .tc := ⟨.hbm, 167, rfl⟩
abbrev main_v122 : Ref sig .tc := ⟨.hbm, 168, rfl⟩
abbrev main_c_28 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_29 : Ref sig .tc := ⟨.hbm, 175, rfl⟩
abbrev main_v128 : Ref sig .tc := ⟨.hbm, 176, rfl⟩
abbrev main_v129 : Ref sig .tc := ⟨.hbm, 177, rfl⟩
abbrev main_c_30 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_c_31 : Ref sig .tc := ⟨.hbm, 184, rfl⟩
abbrev main_v135 : Ref sig .tc := ⟨.hbm, 185, rfl⟩
abbrev main_v136 : Ref sig .tc := ⟨.hbm, 186, rfl⟩
abbrev main_c_32 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_33 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_34 : Ref sig .tc := ⟨.hbm, 210, rfl⟩
abbrev main_v158 : Ref sig .tc := ⟨.hbm, 211, rfl⟩
abbrev main_c_35 : Ref sig .tc := ⟨.hbm, 212, rfl⟩
abbrev main_v159 : Ref sig .tc := ⟨.hbm, 213, rfl⟩
abbrev main_v160 : Ref sig .tc := ⟨.hbm, 214, rfl⟩
abbrev main_c_36 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_37 : Ref sig .tc := ⟨.hbm, 220, rfl⟩
abbrev main_v165 : Ref sig .tc := ⟨.hbm, 221, rfl⟩
abbrev main_v166 : Ref sig .tc := ⟨.hbm, 222, rfl⟩
abbrev main_cst_38 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_c_39 : Ref sig .tc := ⟨.hbm, 227, rfl⟩
abbrev main_v170 : Ref sig .tc := ⟨.hbm, 228, rfl⟩
abbrev main_v171 : Ref sig .tc := ⟨.hbm, 229, rfl⟩
abbrev main_c_40 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_c_41 : Ref sig .tc := ⟨.hbm, 236, rfl⟩
abbrev main_v177 : Ref sig .tc := ⟨.hbm, 237, rfl⟩
abbrev main_v178 : Ref sig .tc := ⟨.hbm, 238, rfl⟩
abbrev main_c_42 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_c_43 : Ref sig .tc := ⟨.hbm, 245, rfl⟩
abbrev main_v184 : Ref sig .tc := ⟨.hbm, 246, rfl⟩
abbrev main_v185 : Ref sig .tc := ⟨.hbm, 247, rfl⟩
abbrev main_c_44 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_cst_45 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_cst_46 : Ref sig .tc := ⟨.hbm, 277, rfl⟩
abbrev main_v213 : Ref sig .tc := ⟨.hbm, 278, rfl⟩
abbrev main_v214 : Ref sig .tc := ⟨.hbm, 279, rfl⟩
abbrev main_cst_47 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_scratch0 : Ref sig .tc := ⟨.vmem, 41, rfl⟩
abbrev cc7_stg0_0 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg3_0 : Ref sig .tc := ⟨.vmem, 45, rfl⟩
abbrev cc7_stg4_0 : Ref sig .tc := ⟨.vmem, 46, rfl⟩
abbrev cc7_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc5_sem3_0 : DmaSem sig := 33
abbrev cc5_sem4_0 : DmaSem sig := 34
abbrev cc5_sem4_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc7_sem0_0 : DmaSem sig := 41
abbrev cc7_sem1_0 : DmaSem sig := 42
abbrev cc7_sem2_0 : DmaSem sig := 43
abbrev cc7_sem3_0 : DmaSem sig := 44
abbrev cc7_sem4_0 : DmaSem sig := 45
abbrev cc7_sem5_0 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v15 : BitVec 1 := Scalar.cmpi .eq arg0 c9_i32
  let v16 : BitVec 32 := Scalar.extui v15
  let c0_i32_8 : BitVec 32 := 0#32
  let v17 : BitVec 1 := Scalar.cmpi .ne v16 c0_i32_8
  v17

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  shapeCasts_S64x128_S64x128 : S64x128.ShapeCasts S64x128
  shapeCasts_S5000x64_S5000x64 : S5000x64.ShapeCasts S5000x64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S1_S1x1 : S1.ShapeCasts S1x1
  broadcasts_S1x128_S64x128 : S1x128.Broadcasts S64x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  dot_S5000x64_S64x128_S5000x128_1_0_0_1_n_n_wf : DotDims.WF S5000x64 S64x128 S5000x128 [1] [0] [0] [1] [] []
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  gather_S50000_S1600000x1_S1600000_n_0_n_n_0_1_1_wf : GatherDims.WF S50000 S1600000x1 S1600000 [] [0] [] [0] [] 1 ![1]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x128.size a ≤ S64x128.size a
  hwx7_0 : ∀ i : grid7.Coords, EltTy.bits .f32 = 32 ∨ (Rect.block (s := S64x128) S64x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x1.size a ≤ S128x1.size a
  hwx7_3 : ∀ i : grid7.Coords, EltTy.bits .f32 = 32 ∨ (Rect.block (s := S128x1) S128x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x1.size a ≤ S64x1.size a
  hwx7_5 : ∀ i : grid7.Coords, EltTy.bits .f32 = 32 ∨ (Rect.block (s := S64x1) S64x1.size (cc7_transform_5 i) (hinb7_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v100) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v99) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v101) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v102) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v102) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v103) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v102) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v104) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v153) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v203) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v202) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v204) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v205) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v212) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v205) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v214) S64x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v219) S64x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v220) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S128x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v221) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v222) S64x1.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x64 : Shape := ⟨2, ![50000, 64]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S50000x128 : Shape := ⟨2, ![50000, 128]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S64 : Shape := ⟨1, ![64]⟩
abbrev S64x1 : Shape := ⟨2, ![64, 1]⟩
abbrev S1x1 : Shape := ⟨2, ![1, 1]⟩

abbrev nBuf : Space → Nat
  | .hbm => 311
  | .vmem => 0
  | .smem => 0
  | _ => 0

abbrev hbmTy0_0 (i : Nat) : BufTy := match i % 128 with
  | 0 => ⟨S50000x64, .f32⟩
  | 1 => ⟨S64x128, .f32⟩
  | 2 => ⟨S128, .f32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S2x1600000, .i32⟩
  | 14 => ⟨S2x1600000, .i32⟩
  | 15 => ⟨S50000, .i32⟩
  | 16 => ⟨S1x1600000, .i32⟩
  | 17 => ⟨S1600000, .i32⟩
  | 18 => ⟨S1x1600000, .i32⟩
  | 19 => ⟨S1600000, .i32⟩
  | 20 => ⟨S50000x128, .f32⟩
  | 21 => ⟨S_, .f32⟩
  | 22 => ⟨S50000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S_, .f32⟩
  | 32 => ⟨S1600000, .f32⟩
  | 33 => ⟨S50000, .f32⟩
  | 34 => ⟨S_, .f32⟩
  | 35 => ⟨S50000, .f32⟩
  | 36 => ⟨S50000, .f32⟩
  | 37 => ⟨S50000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000, .f32⟩
  | 65 => ⟨S1600000, .f32⟩
  | 66 => ⟨S1600000x1, .f32⟩
  | 67 => ⟨S1600000x128, .f32⟩
  | 68 => ⟨S1600000x128, .f32⟩
  | 69 => ⟨S_, .f32⟩
  | 70 => ⟨S50000x128, .f32⟩
  | 71 => ⟨S1600000x1, .i32⟩
  | 72 => ⟨S50000x128, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x1600000, .i32⟩
  | 82 => ⟨S1600000, .i32⟩
  | 83 => ⟨S1x1600000, .i32⟩
  | 84 => ⟨S1600000, .i32⟩
  | 85 => ⟨S50000x128, .f32⟩
  | 86 => ⟨S_, .f32⟩
  | 87 => ⟨S50000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S_, .f32⟩
  | 97 => ⟨S1600000, .f32⟩
  | 98 => ⟨S50000, .f32⟩
  | 99 => ⟨S_, .f32⟩
  | 100 => ⟨S50000, .f32⟩
  | 101 => ⟨S50000, .f32⟩
  | 102 => ⟨S50000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S50000x64, .f32⟩

abbrev hbmTy0_1 (i : Nat) : BufTy := match i % 128 with
  | 0 => ⟨S1600000x1, .i32⟩
  | 1 => ⟨S1600000, .f32⟩
  | 2 => ⟨S1600000, .f32⟩
  | 3 => ⟨S1600000x1, .f32⟩
  | 4 => ⟨S1600000x128, .f32⟩
  | 5 => ⟨S1600000x128, .f32⟩
  | 6 => ⟨S_, .f32⟩
  | 7 => ⟨S50000x128, .f32⟩
  | 8 => ⟨S1600000x1, .i32⟩
  | 9 => ⟨S50000x128, .f32⟩
  | 10 => ⟨S50000, .f32⟩
  | 11 => ⟨S50000x1, .f32⟩
  | 12 => ⟨S50000x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S1x1600000, .i32⟩
  | 23 => ⟨S1600000, .i32⟩
  | 24 => ⟨S1x1600000, .i32⟩
  | 25 => ⟨S1600000, .i32⟩
  | 26 => ⟨S50000x128, .f32⟩
  | 27 => ⟨S_, .f32⟩
  | 28 => ⟨S50000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S_, .f32⟩
  | 38 => ⟨S1600000, .f32⟩
  | 39 => ⟨S50000, .f32⟩
  | 40 => ⟨S_, .f32⟩
  | 41 => ⟨S50000, .f32⟩
  | 42 => ⟨S50000, .f32⟩
  | 43 => ⟨S50000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000, .f32⟩
  | 71 => ⟨S1600000, .f32⟩
  | 72 => ⟨S1600000x1, .f32⟩
  | 73 => ⟨S1600000x128, .f32⟩
  | 74 => ⟨S1600000x128, .f32⟩
  | 75 => ⟨S_, .f32⟩
  | 76 => ⟨S50000x128, .f32⟩
  | 77 => ⟨S1600000x1, .i32⟩
  | 78 => ⟨S50000x128, .f32⟩
  | 79 => ⟨S50000, .f32⟩
  | 80 => ⟨S50000x1, .f32⟩
  | 81 => ⟨S50000x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S1x1600000, .i32⟩
  | 88 => ⟨S1600000, .i32⟩
  | 89 => ⟨S1x1600000, .i32⟩
  | 90 => ⟨S1600000, .i32⟩
  | 91 => ⟨S50000x128, .f32⟩
  | 92 => ⟨S_, .f32⟩
  | 93 => ⟨S50000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S_, .f32⟩
  | 103 => ⟨S1600000, .f32⟩
  | 104 => ⟨S50000, .f32⟩
  | 105 => ⟨S_, .f32⟩
  | 106 => ⟨S50000, .f32⟩
  | 107 => ⟨S50000, .f32⟩
  | 108 => ⟨S50000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000, .f32⟩
  | 127 => ⟨S_, .i32⟩
  | _ => ⟨S50000x64, .f32⟩

abbrev hbmTy0_2 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000, .f32⟩
  | 8 => ⟨S1600000, .f32⟩
  | 9 => ⟨S1600000x1, .f32⟩
  | 10 => ⟨S1600000x128, .f32⟩
  | 11 => ⟨S1600000x128, .f32⟩
  | 12 => ⟨S_, .f32⟩
  | 13 => ⟨S50000x128, .f32⟩
  | 14 => ⟨S1600000x1, .i32⟩
  | 15 => ⟨S50000x128, .f32⟩
  | 16 => ⟨S50000, .f32⟩
  | 17 => ⟨S50000x1, .f32⟩
  | 18 => ⟨S50000x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S_, .f32⟩
  | 29 => ⟨S64x128, .f32⟩
  | 30 => ⟨S50000x1, .i32⟩
  | 31 => ⟨S64x128, .f32⟩
  | 32 => ⟨S_, .f32⟩
  | 33 => ⟨S50000, .f32⟩
  | 34 => ⟨S_, .f32⟩
  | 35 => ⟨S64, .f32⟩
  | 36 => ⟨S50000x1, .i32⟩
  | 37 => ⟨S64, .f32⟩
  | 38 => ⟨S_, .f32⟩
  | 39 => ⟨S64, .f32⟩
  | 40 => ⟨S64, .f32⟩
  | 41 => ⟨S64x1, .f32⟩
  | 42 => ⟨S64x128, .f32⟩
  | 43 => ⟨S64x128, .f32⟩
  | 44 => ⟨S64x128, .f32⟩
  | 45 => ⟨S1x128, .f32⟩
  | 46 => ⟨S64x128, .f32⟩
  | 47 => ⟨S64x128, .f32⟩
  | 48 => ⟨S_, .f32⟩
  | 49 => ⟨S64x128, .f32⟩
  | 50 => ⟨S64x128, .f32⟩
  | 51 => ⟨S64x1, .f32⟩
  | 52 => ⟨S1x1, .f32⟩
  | 53 => ⟨S64x1, .f32⟩
  | 54 => ⟨S64x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_c_11 : Ref sig .tc := ⟨.hbm, 88, rfl⟩
abbrev main_v59 : Ref sig .tc := ⟨.hbm, 89, rfl⟩
abbrev main_v60 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_15 : Ref sig .tc := ⟨.hbm, 103, rfl⟩
abbrev main_v70 : Ref sig .tc := ⟨.hbm, 104, rfl⟩
abbrev main_v71 : Ref sig .tc := ⟨.hbm, 105, rfl⟩
abbrev main_c_16 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_17 : Ref sig .tc := ⟨.hbm, 112, rfl⟩
abbrev main_v77 : Ref sig .tc := ⟨.hbm, 113, rfl⟩
abbrev main_v78 : Ref sig .tc := ⟨.hbm, 114, rfl⟩
abbrev main_c_18 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_19 : Ref sig .tc := ⟨.hbm, 121, rfl⟩
abbrev main_v84 : Ref sig .tc := ⟨.hbm, 122, rfl⟩
abbrev main_v85 : Ref sig .tc := ⟨.hbm, 123, rfl⟩
abbrev main_c_20 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_21 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_call0_cst : Ref sig .tc := ⟨.hbm, 147, rfl⟩
abbrev main_call0_v0 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_22 : Ref sig .tc := ⟨.hbm, 155, rfl⟩
abbrev main_v113 : Ref sig .tc := ⟨.hbm, 156, rfl⟩
abbrev main_c_23 : Ref sig .tc := ⟨.hbm, 157, rfl⟩
abbrev main_v114 : Ref sig .tc := ⟨.hbm, 158, rfl⟩
abbrev main_v115 : Ref sig .tc := ⟨.hbm, 159, rfl⟩
abbrev main_c_24 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_25 : Ref sig .tc := ⟨.hbm, 165, rfl⟩
abbrev main_v120 : Ref sig .tc := ⟨.hbm, 166, rfl⟩
abbrev main_v121 : Ref sig .tc := ⟨.hbm, 167, rfl⟩
abbrev main_cst_26 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_c_27 : Ref sig .tc := ⟨.hbm, 172, rfl⟩
abbrev main_v125 : Ref sig .tc := ⟨.hbm, 173, rfl⟩
abbrev main_v126 : Ref sig .tc := ⟨.hbm, 174, rfl⟩
abbrev main_c_28 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_c_29 : Ref sig .tc := ⟨.hbm, 181, rfl⟩
abbrev main_v132 : Ref sig .tc := ⟨.hbm, 182, rfl⟩
abbrev main_v133 : Ref sig .tc := ⟨.hbm, 183, rfl⟩
abbrev main_c_30 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_c_31 : Ref sig .tc := ⟨.hbm, 190, rfl⟩
abbrev main_v139 : Ref sig .tc := ⟨.hbm, 191, rfl⟩
abbrev main_v140 : Ref sig .tc := ⟨.hbm, 192, rfl⟩
abbrev main_c_32 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_33 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_34 : Ref sig .tc := ⟨.hbm, 220, rfl⟩
abbrev main_v166 : Ref sig .tc := ⟨.hbm, 221, rfl⟩
abbrev main_c_35 : Ref sig .tc := ⟨.hbm, 222, rfl⟩
abbrev main_v167 : Ref sig .tc := ⟨.hbm, 223, rfl⟩
abbrev main_v168 : Ref sig .tc := ⟨.hbm, 224, rfl⟩
abbrev main_c_36 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_37 : Ref sig .tc := ⟨.hbm, 230, rfl⟩
abbrev main_v173 : Ref sig .tc := ⟨.hbm, 231, rfl⟩
abbrev main_v174 : Ref sig .tc := ⟨.hbm, 232, rfl⟩
abbrev main_cst_38 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_c_39 : Ref sig .tc := ⟨.hbm, 237, rfl⟩
abbrev main_v178 : Ref sig .tc := ⟨.hbm, 238, rfl⟩
abbrev main_v179 : Ref sig .tc := ⟨.hbm, 239, rfl⟩
abbrev main_c_40 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_c_41 : Ref sig .tc := ⟨.hbm, 246, rfl⟩
abbrev main_v185 : Ref sig .tc := ⟨.hbm, 247, rfl⟩
abbrev main_v186 : Ref sig .tc := ⟨.hbm, 248, rfl⟩
abbrev main_c_42 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_c_43 : Ref sig .tc := ⟨.hbm, 255, rfl⟩
abbrev main_v192 : Ref sig .tc := ⟨.hbm, 256, rfl⟩
abbrev main_v193 : Ref sig .tc := ⟨.hbm, 257, rfl⟩
abbrev main_c_44 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_cst_45 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_call1_cst : Ref sig .tc := ⟨.hbm, 281, rfl⟩
abbrev main_call1_v0 : Ref sig .tc := ⟨.hbm, 282, rfl⟩
abbrev main_v215 : Ref sig .tc := ⟨.hbm, 283, rfl⟩
abbrev main_cst_46 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_cst_47 : Ref sig .tc := ⟨.hbm, 288, rfl⟩
abbrev main_v219 : Ref sig .tc := ⟨.hbm, 289, rfl⟩
abbrev main_cst_48 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_cst_49 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_call2_cst : Ref sig .tc := ⟨.hbm, 304, rfl⟩
abbrev main_call2_v0 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x64_S64x128_S50000x128_1_0_0_1_n_n_wf : DotDims.WF S50000x64 S64x128 S50000x128 [1] [0] [0] [1] [] []
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  gather_S50000_S1600000x1_S1600000_n_0_n_n_0_1_1_wf : GatherDims.WF S50000 S1600000x1 S1600000 [] [0] [] [0] [] 1 ![1]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.RegKit.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {nD : Nat} {τ : Topo} {sig : RefSig} {Val : EltTy → Type} {Λ₀ : Idealize.SL.Sem.Labels}
variable (cfg : Cfg sig Λ₀) (c : Dev nD)

local notation "𝕄" => MT nD τ sig Unit Val ℕ (UR sig nD τ) ℕ

/-- The proof data of a region with a constant invariant; only the entry contents and what the body leaves vary. -/
def plainDat (A : (w : Fin cfg.W) → Buf Val ((cfg.win w).arr.view.loc (c.tc : Thread nD τ)))
    (after : (w : Fin cfg.W) → Fin cfg.N → (cfg.win w).block.Idx → Val (cfg.win w).elt) :
    Dat τ Val Unit ℕ (UR sig nD τ) ℕ cfg c where
  A := A
  after := after
  Φ _ := Pipeline.ΦA cfg.spec c
  q _ := fullShare
  owed _ := 0

variable {cfg c}

/-- What is the same at every point and unread by the body frames around the body's triple. -/
theorem plainDat_obligation {defs₀ : Defs nD τ sig Val Λ₀} {𝒱₀ : Variants} {E : Set ℕ}
    {dat : Dat τ Val Unit ℕ (UR sig nD τ) ℕ cfg c}
    {A : (w : Fin cfg.W) → Buf Val ((cfg.win w).arr.view.loc (c.tc : Thread nD τ))}
    {after : (w : Fin cfg.W) → Fin cfg.N → (cfg.win w).block.Idx → Val (cfg.win w).elt}
    (hd : dat = plainDat cfg c A after) (hlive : ∀ w i, cfg.idle w i = false)
    (h : ∀ t : Fin cfg.N,
      ((bigSep Finset.univ fun w : Fin cfg.W =>
          iprop(∃ d, owns c ((cfg.win w).stage (cfg.slots t w)) fullShare (dat.before w t d))) : sProp 𝕄)
        ⊢ wp frame (wpE defs₀ 𝒱₀ c none) E (defs₀ .tc cfg.body (cfg.bodyArgs t (cfg.slots t))) fun _ =>
            bigSep Finset.univ fun w : Fin cfg.W => owns c ((cfg.win w).stage (cfg.slots t w)) fullShare (dat.after w t)) :
    BodyObligation dat defs₀ 𝒱₀ () E := fun t => by
  subst hd
  simp only [hlive]
  exact (sep_mono .rfl ((sep_mono .rfl (h t)).trans (wp_frame_l _ _ _))).trans (wp_frame_l _ _ _)

end Cert.Kernel.Hand

end
-- ==== Proof.K.Reg0.lean ====
import proofs.«420580_j29025388986926_1_alg».proof.Proof.Gen.Kernel.Launch
import proofs.«420580_j29025388986926_1_alg».proof.Proof.Gen.Kernel.Skeleton
import proofs.«420580_j29025388986926_1_alg».proof.Proof.Gen.Kernel.Points
import proofs.«420580_j29025388986926_1_alg».proof.Proof.K.RegKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S5000x64 := Rect.unit (s := S5000x64) ![0, 0] S5000x64.size inb_S5000x64_S5000x64_0_0
abbrev rw0 : Rect S64x128 := Rect.unit (s := S64x128) ![0, 0] S64x128.size inb_S64x128_S64x128_0_0
abbrev ro0 : Rect S5000x128 := Rect.unit (s := S5000x128) ![0, 0] S5000x128.size inb_S5000x128_S5000x128_0_0

/-- What the body leaves in the output buffer: its one store, of the product of the block and the weight. -/
def out0 (x : Vec F S5000x64 .f32) (w : Vec F S64x128 .f32) : Vec F S5000x128 .f32 :=
  View.canon [⟨ro0, k0_pay1 (View.ld x rx0) (View.ld w rw0)⟩]

set_option maxHeartbeats 1000000 in
/-- The one store covers the output buffer, so what the buffer held before does not matter. -/
theorem body0_triple (E : Set ℕ) (i : grid0.Coords)
    (ax : Memref sig .tc .vmem S5000x64 .f32) (hax : ax.IsWhole)
    (aw : Memref sig .tc .vmem S64x128 .f32) (haw : aw.IsWhole)
    (ao : Memref sig .tc .vmem S5000x128 .f32) (hao : ao.IsWhole)
    (x : Vec F S5000x64 .f32) (w : Vec F S64x128 .f32) :
    iprop(owns c ax fullShare x ∗ owns c aw fullShare w
        ∗ ∃ d, owns c ao fullShare d)
      ⊢ (wp frame (wpE (defs₀ (F := F)) Variants.none c none) E (cc0__linear_kernel i ax hax aw haw ao hao) fun _ =>
          iprop(owns c ax fullShare x ∗ owns c aw fullShare w
            ∗ owns c ao fullShare (out0 x w)) : sProp 𝕄) := by
  simp only [cc0__linear_kernel_eq_skeleton]; unfold cc0__linear_kernel_skel
  unfold owns
  iintro ⟨⟨%fx, %hfx, Hx⟩, ⟨%fw, %hfw, Hw⟩, ⟨%d, %fo, -, Ho⟩⟩
  subst hfx; subst hfw
  sl_exec
  sl_step
  isplitl [Hx]; · iexists fx; iframe Hx; ipureintro; rfl
  isplitl [Hw]; · iexists fw; iframe Hw; ipureintro; rfl
  iexists _; iframe Ho; ipureintro
  exact View.read_writes_eq_canon _ _ _ (View.cover_of_tiled _ S5000x128.size (by rfl))

def dat0 : Dat τ (Elt F) Unit ℕ (UR sig nD τ) ℕ cfg0 c :=
  plainDat cfg0 c (fun w => V c (Pipeline.arrRef spec0 w)) fun w t => match w with
    | ⟨0, _⟩ => iblk0 V c 0 t
    | ⟨1, _⟩ => iblk0 V c 1 t
    | ⟨2, _⟩ => out0 (iblk0 V c 0 t) (iblk0 V c 1 t)

theorem A_eq0 (w : Fin cfg0.W) : (dat0 V c).A w = V c (Pipeline.arrRef spec0 w) := rfl
theorem q_eq0 (w : Fin cfg0.W) : (dat0 V c).q w = fullShare := rfl
theorem owed_eq0 (t : Fin (cfg0.N + 1)) : (dat0 V c).owed t = 0 := rfl
theorem after0_2 (t : Fin cfg0.N) : (dat0 V c).after 2 t = out0 (iblk0 V c 0 t) (iblk0 V c 1 t) := by
  dsimp only [dat0, plainDat]
theorem hin0 : (Pipeline.ΦA spec0 c : sProp 𝕄) ⊢ (dat0 V c).Φ 0 := .rfl
theorem hout0 : (dat0 V c).Φ (Fin.last cfg0.N) ⊢ (Pipeline.ΦA spec0 c : sProp 𝕄) := .rfl

theorem before0_0 (t : Fin cfg0.N) (d) : (dat0 V c).before 0 t d = iblk0 V c 0 t :=
  (dat0 V c).before_in_eq_fetched 0 rfl (fun _ => rfl) (fun _ _ _ => rfl) (fun _ => rfl) t d
theorem before0_1 (t : Fin cfg0.N) (d) : (dat0 V c).before 1 t d = iblk0 V c 1 t :=
  (dat0 V c).before_in_eq_fetched 1 rfl (fun _ => rfl) (fun _ _ _ => rfl) (fun _ => rfl) t d

theorem body_obligation0 : BodyObligation (dat0 (F := F) V c) (defs₀ (F := F)) Variants.none () Set.univ :=
  plainDat_obligation rfl (fun _ _ => rfl) fun t => by
    rw [bigSep_W0, bigSep_W0]
    simp only [before0_0, before0_1]
    dsimp only [dat0, plainDat]
    show _ ⊢ wp _ _ _ (bodyAt0 t) _
    iintro ⟨⟨%d0, Hx⟩, ⟨%d1, Hw⟩, ⟨%d2, Ho⟩⟩
    iapply (body0_triple c Set.univ _ _ _ _ _ _ _ (iblk0 V c 0 t) (iblk0 V c 1 t))
    iframe Hx Hw
    iexists _; iexact Ho

end Cert.Kernel.Hand
-- ==== Proof.K.Reg1.lean ====
import proofs.«420580_j29025388986926_1_alg».proof.Proof.K.Reg0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output buffer: its one store, of the product of the block and the weight. -/
def out1 (x : Vec F S5000x64 .f32) (w : Vec F S64x128 .f32) : Vec F S5000x128 .f32 :=
  View.canon [⟨ro0, k1_pay1 (View.ld x rx0) (View.ld w rw0)⟩]

/-- The region runs the same kernel as region 0: both bodies are the same loads and the same one store. -/
theorem kernel1_eq : cc1__linear_kernel (F := F) = cc0__linear_kernel :=
  cc1__linear_kernel_eq_skeleton.trans cc0__linear_kernel_eq_skeleton.symm
theorem out1_eq : out1 (F := F) = out0 := rfl

def dat1 : Dat τ (Elt F) Unit ℕ (UR sig nD τ) ℕ cfg1 c :=
  plainDat cfg1 c (fun w => V c (Pipeline.arrRef spec1 w)) fun w t => match w with
    | ⟨0, _⟩ => iblk1 V c 0 t
    | ⟨1, _⟩ => iblk1 V c 1 t
    | ⟨2, _⟩ => out1 (iblk1 V c 0 t) (iblk1 V c 1 t)

theorem A_eq1 (w : Fin cfg1.W) : (dat1 V c).A w = V c (Pipeline.arrRef spec1 w) := rfl
theorem q_eq1 (w : Fin cfg1.W) : (dat1 V c).q w = fullShare := rfl
theorem owed_eq1 (t : Fin (cfg1.N + 1)) : (dat1 V c).owed t = 0 := rfl
theorem after1_2 (t : Fin cfg1.N) : (dat1 V c).after 2 t = out1 (iblk1 V c 0 t) (iblk1 V c 1 t) := by
  dsimp only [dat1, plainDat]
theorem hin1 : (Pipeline.ΦA spec1 c : sProp 𝕄) ⊢ (dat1 V c).Φ 0 := .rfl
theorem hout1 : (dat1 V c).Φ (Fin.last cfg1.N) ⊢ (Pipeline.ΦA spec1 c : sProp 𝕄) := .rfl

theorem before1_0 (t : Fin cfg1.N) (d) : (dat1 V c).before 0 t d = iblk1 V c 0 t :=
  (dat1 V c).before_in_eq_fetched 0 rfl (fun _ => rfl) (fun _ _ _ => rfl) (fun _ => rfl) t d
theorem before1_1 (t : Fin cfg1.N) (d) : (dat1 V c).before 1 t d = iblk1 V c 1 t :=
  (dat1 V c).before_in_eq_fetched 1 rfl (fun _ => rfl) (fun _ _ _ => rfl) (fun _ => rfl) t d

theorem body_obligation1 : BodyObligation (dat1 (F := F) V c) (defs₀ (F := F)) Variants.none () Set.univ :=
  plainDat_obligation rfl (fun _ _ => rfl) fun t => by
    rw [bigSep_W1, bigSep_W1]
    simp only [before1_0, before1_1]
    dsimp only [dat1, plainDat]
    show _ ⊢ wp _ _ _ (bodyAt1 t) _
    rw [bodyAt1, kernel1_eq, out1_eq]
    iintro ⟨⟨%d0, Hx⟩, ⟨%d1, Hw⟩, ⟨%d2, Ho⟩⟩
    iapply (body0_triple c Set.univ _ _ _ _ _ _ _ (iblk1 V c 0 t) (iblk1 V c 1 t))
    iframe Hx Hw
    iexists _; iexact Ho

end Cert.Kernel.Hand
-- ==== Proof.K.Reg2.lean ====
import proofs.«420580_j29025388986926_1_alg».proof.Proof.Gen.Kernel.Launch
import proofs.«420580_j29025388986926_1_alg».proof.Proof.Gen.Kernel.Skeleton
import proofs.«420580_j29025388986926_1_alg».proof.Proof.Gen.Kernel.Points
import proofs.«420580_j29025388986926_1_alg».proof.Proof.K.RegKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rBlk2 : Rect S5000x128 := Rect.unit (s := S5000x128) ![0, 0] S5000x128.size inb_S5000x128_S5000x128_0_0
abbrev rRow2 : Rect S1x128 := Rect.unit (s := S1x128) ![0, 0] S1x128.size inb_S1x128_S1x128_0_0

/-- What the body leaves in the output buffer: the two blocks plus the two rows repeated down the block, clamped below at zero. -/
def out2 (x0 : Vec F S5000x128 .f32) (b1 : Vec F S1x128 .f32) (x2 : Vec F S5000x128 .f32) (b3 : Vec F S1x128 .f32) : Vec F S5000x128 .f32 :=
  View.canon [⟨rBlk2, k2_pay1 (View.ld b1 rRow2) (View.ld b3 rRow2) (View.ld x0 rBlk2) (View.ld x2 rBlk2)⟩]

set_option maxHeartbeats 1000000 in
/-- The one store covers the output buffer, so what the buffer held before does not matter. -/
theorem sound_kernel2 (E : Set ℕ) (i : grid2.Coords)
    (a0 : Memref sig .tc .vmem S5000x128 .f32) (h0 : a0.IsWhole) (a1 : Memref sig .tc .vmem S1x128 .f32) (h1 : a1.IsWhole)
    (a2 : Memref sig .tc .vmem S5000x128 .f32) (h2 : a2.IsWhole) (a3 : Memref sig .tc .vmem S1x128 .f32) (h3 : a3.IsWhole)
    (a4 : Memref sig .tc .vmem S5000x128 .f32) (h4 : a4.IsWhole)
    (x0 : Vec F S5000x128 .f32) (b1 : Vec F S1x128 .f32) (x2 : Vec F S5000x128 .f32) (b3 : Vec F S1x128 .f32) :
    iprop(owns c a0 fullShare x0 ∗ owns c a1 fullShare b1
        ∗ owns c a2 fullShare x2 ∗ owns c a3 fullShare b3
        ∗ ∃ d, owns c a4 fullShare d)
      ⊢ (wp frame (wpE (defs₀ (F := F)) Variants.none c none) E (cc2__combine_kernel i a0 h0 a1 h1 a2 h2 a3 h3 a4 h4) fun _ =>
          iprop(owns c a0 fullShare x0 ∗ owns c a1 fullShare b1
            ∗ owns c a2 fullShare x2 ∗ owns c a3 fullShare b3
            ∗ owns c a4 fullShare (out2 x0 b1 x2 b3)) : sProp 𝕄) := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩⟩
  subst hf0; subst hf1; subst hf2; subst hf3
  sl_exec
  sl_step
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S5000x128.size (by rfl))

def dat2 : Dat τ (Elt F) Unit ℕ (UR sig nD τ) ℕ cfg2 c :=
  plainDat cfg2 c (fun w => V c (Pipeline.arrRef spec2 w)) fun w t => match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)

theorem A_eq2 (w : Fin cfg2.W) : (dat2 V c).A w = V c (Pipeline.arrRef spec2 w) := rfl
theorem q_eq2 (w : Fin cfg2.W) : (dat2 V c).q w = fullShare := rfl
theorem owed_eq2 (t : Fin (cfg2.N + 1)) : (dat2 V c).owed t = 0 := rfl
theorem after2_4 (t : Fin cfg2.N) :
    (dat2 V c).after 4 t = out2 (iblk2 V c 0 t) (iblk2 V c 1 t) (iblk2 V c 2 t) (iblk2 V c 3 t) := by
  dsimp only [dat2, plainDat]
theorem hin2 : (Pipeline.ΦA spec2 c : sProp 𝕄) ⊢ (dat2 V c).Φ 0 := .rfl
theorem hout2 : (dat2 V c).Φ (Fin.last cfg2.N) ⊢ (Pipeline.ΦA spec2 c : sProp 𝕄) := .rfl

theorem before2_0 (t : Fin cfg2.N) (d) : (dat2 V c).before 0 t d = iblk2 V c 0 t :=
  (dat2 V c).before_in_eq_fetched 0 rfl (fun _ => rfl) (fun _ _ _ => rfl) (fun _ => rfl) t d
theorem before2_1 (t : Fin cfg2.N) (d) : (dat2 V c).before 1 t d = iblk2 V c 1 t :=
  (dat2 V c).before_in_eq_fetched 1 rfl (fun _ => rfl) (fun _ _ _ => rfl) (fun _ => rfl) t d
theorem before2_2 (t : Fin cfg2.N) (d) : (dat2 V c).before 2 t d = iblk2 V c 2 t :=
  (dat2 V c).before_in_eq_fetched 2 rfl (fun _ => rfl) (fun _ _ _ => rfl) (fun _ => rfl) t d
theorem before2_3 (t : Fin cfg2.N) (d) : (dat2 V c).before 3 t d = iblk2 V c 3 t :=
  (dat2 V c).before_in_eq_fetched 3 rfl (fun _ => rfl) (fun _ _ _ => rfl) (fun _ => rfl) t d

theorem body_obligation2 : BodyObligation (dat2 (F := F) V c) (defs₀ (F := F)) Variants.none () Set.univ :=
  plainDat_obligation rfl (fun _ _ => rfl) fun t => by
    rw [bigSep_W2, bigSep_W2]
    simp only [before2_0, before2_1, before2_2, before2_3]
    dsimp only [dat2, plainDat]
    show _ ⊢ wp _ _ _ (bodyAt2 t) _
    iintro ⟨⟨%d0, H0⟩, ⟨%d1, H1⟩, ⟨%d2, H2⟩, ⟨%d3, H3⟩, ⟨%d4, H4⟩⟩
    iapply (sound_kernel2 c Set.univ _ _ _ _ _ _ _ _ _ _ _ (iblk2 V c 0 t) (iblk2 V c 1 t) (iblk2 V c 2 t) (iblk2 V c 3 t))
    iframe H0 H1 H2 H3
    iexists _; iexact H4

end Cert.Kernel.Hand
-- ==== Proof.K.Reg3.lean ====
import proofs.«420580_j29025388986926_1_alg».proof.Proof.Gen.Kernel.Launch
import proofs.«420580_j29025388986926_1_alg».proof.Proof.Gen.Kernel.Skeleton
import proofs.«420580_j29025388986926_1_alg».proof.Proof.Gen.Kernel.Points
import proofs.«420580_j29025388986926_1_alg».proof.Proof.K.RegKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rx3 : Rect S5000x128 := Rect.unit (s := S5000x128) ![0, 0] S5000x128.size inb_S5000x128_S5000x128_0_0
abbrev rw3 : Rect S128x128 := Rect.unit (s := S128x128) ![0, 0] S128x128.size inb_S128x128_S128x128_0_0
abbrev ro3 : Rect S5000x128 := Rect.unit (s := S5000x128) ![0, 0] S5000x128.size inb_S5000x128_S5000x128_0_0

/-- What the body leaves in the output buffer: its one store, of the product of the block and the weight. -/
def out3 (x : Vec F S5000x128 .f32) (w : Vec F S128x128 .f32) : Vec F S5000x128 .f32 :=
  View.canon [⟨ro3, k3_pay1 (View.ld x rx3) (View.ld w rw3)⟩]

set_option maxHeartbeats 1000000 in
/-- The one store covers the output buffer, so what the buffer held before does not matter. -/
theorem body3_triple (E : Set ℕ) (i : grid3.Coords)
    (ax : Memref sig .tc .vmem S5000x128 .f32) (hax : ax.IsWhole)
    (aw : Memref sig .tc .vmem S128x128 .f32) (haw : aw.IsWhole)
    (ao : Memref sig .tc .vmem S5000x128 .f32) (hao : ao.IsWhole)
    (x : Vec F S5000x128 .f32) (w : Vec F S128x128 .f32) :
    iprop(owns c ax fullShare x ∗ owns c aw fullShare w
        ∗ ∃ d, owns c ao fullShare d)
      ⊢ (wp frame (wpE (defs₀ (F := F)) Variants.none c none) E (cc3__linear_kernel i ax hax aw haw ao hao) fun _ =>
          iprop(owns c ax fullShare x ∗ owns c aw fullShare w
            ∗ owns c ao fullShare (out3 x w)) : sProp 𝕄) := by
  simp only [cc3__linear_kernel_eq_skeleton]; unfold cc3__linear_kernel_skel
  unfold owns
  iintro ⟨⟨%fx, %hfx, Hx⟩, ⟨%fw, %hfw, Hw⟩, ⟨%d, %fo, -, Ho⟩⟩
  subst hfx; subst hfw
  sl_exec
  sl_step
  isplitl [Hx]; · iexists fx; iframe Hx; ipureintro; rfl
  isplitl [Hw]; · iexists fw; iframe Hw; ipureintro; rfl
  iexists _; iframe Ho; ipureintro
  exact View.read_writes_eq_canon _ _ _ (View.cover_of_tiled _ S5000x128.size (by rfl))

def dat3 : Dat τ (Elt F) Unit ℕ (UR sig nD τ) ℕ cfg3 c :=
  plainDat cfg3 c (fun w => V c (Pipeline.arrRef spec3 w)) fun w t => match w with
    | ⟨0, _⟩ => iblk3 V c 0 t
    | ⟨1, _⟩ => iblk3 V c 1 t
    | ⟨2, _⟩ => out3 (iblk3 V c 0 t) (iblk3 V c 1 t)

theorem A_eq3 (w : Fin cfg3.W) : (dat3 V c).A w = V c (Pipeline.arrRef spec3 w) := rfl
theorem q_eq3 (w : Fin cfg3.W) : (dat3 V c).q w = fullShare := rfl
theorem owed_eq3 (t : Fin (cfg3.N + 1)) : (dat3 V c).owed t = 0 := rfl
theorem after3_2 (t : Fin cfg3.N) : (dat3 V c).after 2 t = out3 (iblk3 V c 0 t) (iblk3 V c 1 t) := by
  dsimp only [dat3, plainDat]
theorem hin3 : (Pipeline.ΦA spec3 c : sProp 𝕄) ⊢ (dat3 V c).Φ 0 := .rfl
theorem hout3 : (dat3 V c).Φ (Fin.last cfg3.N) ⊢ (Pipeline.ΦA spec3 c : sProp 𝕄) := .rfl

theorem before3_0 (t : Fin cfg3.N) (d) : (dat3 V c).before 0 t d = iblk3 V c 0 t :=
  (dat3 V c).before_in_eq_fetched 0 rfl (fun _ => rfl) (fun _ _ _ => rfl) (fun _ => rfl) t d
theorem before3_1 (t : Fin cfg3.N) (d) : (dat3 V c).before 1 t d = iblk3 V c 1 t :=
  (dat3 V c).before_in_eq_fetched 1 rfl (fun _ => rfl) (fun _ _ _ => rfl) (fun _ => rfl) t d

theorem body_obligation3 : BodyObligation (dat3 (F := F) V c) (defs₀ (F := F)) Variants.none () Set.univ :=
  plainDat_obligation rfl (fun _ _ => rfl) fun t => by
    rw [bigSep_W3, bigSep_W3]
    simp only [before3_0, before3_1]
    dsimp only [dat3, plainDat]
    show _ ⊢ wp _ _ _ (bodyAt3 t) _
    iintro ⟨⟨%d0, Hx⟩, ⟨%d1, Hw⟩, ⟨%d2, Ho⟩⟩
    iapply (body3_triple c Set.univ _ _ _ _ _ _ _ (iblk3 V c 0 t) (iblk3 V c 1 t))
    iframe Hx Hw
    iexists _; iexact Ho

end Cert.Kernel.Hand
-- ==== Proof.K.Reg4.lean ====
import proofs.«420580_j29025388986926_1_alg».proof.Proof.K.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body leaves in the output buffer: its one store, of the product of the block and the weight. -/
def out4 (x : Vec F S5000x128 .f32) (w : Vec F S128x128 .f32) : Vec F S5000x128 .f32 :=
  View.canon [⟨ro3, k4_pay1 (View.ld x rx3) (View.ld w rw3)⟩]

/-- The region runs the same kernel as region 3: both bodies are the same loads and the same one store. -/
theorem kernel4_eq : cc4__linear_kernel (F := F) = cc3__linear_kernel :=
  cc4__linear_kernel_eq_skeleton.trans cc3__linear_kernel_eq_skeleton.symm
theorem out4_eq : out4 (F := F) = out3 := rfl

def dat4 : Dat τ (Elt F) Unit ℕ (UR sig nD τ) ℕ cfg4 c :=
  plainDat cfg4 c (fun w => V c (Pipeline.arrRef spec4 w)) fun w t => match w with
    | ⟨0, _⟩ => iblk4 V c 0 t
    | ⟨1, _⟩ => iblk4 V c 1 t
    | ⟨2, _⟩ => out4 (iblk4 V c 0 t) (iblk4 V c 1 t)

theorem A_eq4 (w : Fin cfg4.W) : (dat4 V c).A w = V c (Pipeline.arrRef spec4 w) := rfl
theorem q_eq4 (w : Fin cfg4.W) : (dat4 V c).q w = fullShare := rfl
theorem owed_eq4 (t : Fin (cfg4.N + 1)) : (dat4 V c).owed t = 0 := rfl
theorem after4_2 (t : Fin cfg4.N) : (dat4 V c).after 2 t = out4 (iblk4 V c 0 t) (iblk4 V c 1 t) := by
  dsimp only [dat4, plainDat]
theorem hin4 : (Pipeline.ΦA spec4 c : sProp 𝕄) ⊢ (dat4 V c).Φ 0 := .rfl
theorem hout4 : (dat4 V c).Φ (Fin.last cfg4.N) ⊢ (Pipeline.ΦA spec4 c : sProp 𝕄) := .rfl

theorem before4_0 (t : Fin cfg4.N) (d) : (dat4 V c).before 0 t d = iblk4 V c 0 t :=
  (dat4 V c).before_in_eq_fetched 0 rfl (fun _ => rfl) (fun _ _ _ => rfl) (fun _ => rfl) t d
theorem before4_1 (t : Fin cfg4.N) (d) : (dat4 V c).before 1 t d = iblk4 V c 1 t :=
  (dat4 V c).before_in_eq_fetched 1 rfl (fun _ => rfl) (fun _ _ _ => rfl) (fun _ => rfl) t d

theorem body_obligation4 : BodyObligation (dat4 (F := F) V c) (defs₀ (F := F)) Variants.none () Set.univ :=
  plainDat_obligation rfl (fun _ _ => rfl) fun t => by
    rw [bigSep_W4, bigSep_W4]
    simp only [before4_0, before4_1]
    dsimp only [dat4, plainDat]
    show _ ⊢ wp _ _ _ (bodyAt4 t) _
    rw [bodyAt4, kernel4_eq, out4_eq]
    iintro ⟨⟨%d0, Hx⟩, ⟨%d1, Hw⟩, ⟨%d2, Ho⟩⟩
    iapply (body3_triple c Set.univ _ _ _ _ _ _ _ (iblk4 V c 0 t) (iblk4 V c 1 t))
    iframe Hx Hw
    iexists _; iexact Ho

end Cert.Kernel.Hand
-- ==== Proof.K.Reg5.lean ====
import proofs.«420580_j29025388986926_1_alg».proof.Proof.K.Reg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body leaves in the output buffer: the two blocks plus the two rows repeated down the block, clamped below at zero. -/
def out5 (x0 : Vec F S5000x128 .f32) (b1 : Vec F S1x128 .f32) (x2 : Vec F S5000x128 .f32) (b3 : Vec F S1x128 .f32) : Vec F S5000x128 .f32 :=
  View.canon [⟨rBlk2, k5_pay1 (View.ld b1 rRow2) (View.ld b3 rRow2) (View.ld x0 rBlk2) (View.ld x2 rBlk2)⟩]

/-- The region runs the same kernel as region 2: both bodies are the same loads and the same one store. -/
theorem kernel5_eq : cc5__combine_kernel (F := F) = cc2__combine_kernel :=
  cc5__combine_kernel_eq_skeleton.trans cc2__combine_kernel_eq_skeleton.symm
theorem out5_eq : out5 (F := F) = out2 := rfl

def dat5 : Dat τ (Elt F) Unit ℕ (UR sig nD τ) ℕ cfg5 c :=
  plainDat cfg5 c (fun w => V c (Pipeline.arrRef spec5 w)) fun w t => match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 (iblk5 V c 0 t) (iblk5 V c 1 t) (iblk5 V c 2 t) (iblk5 V c 3 t)

theorem A_eq5 (w : Fin cfg5.W) : (dat5 V c).A w = V c (Pipeline.arrRef spec5 w) := rfl
theorem q_eq5 (w : Fin cfg5.W) : (dat5 V c).q w = fullShare := rfl
theorem owed_eq5 (t : Fin (cfg5.N + 1)) : (dat5 V c).owed t = 0 := rfl
theorem after5_4 (t : Fin cfg5.N) :
    (dat5 V c).after 4 t = out5 (iblk5 V c 0 t) (iblk5 V c 1 t) (iblk5 V c 2 t) (iblk5 V c 3 t) := by
  dsimp only [dat5, plainDat]
theorem hin5 : (Pipeline.ΦA spec5 c : sProp 𝕄) ⊢ (dat5 V c).Φ 0 := .rfl
theorem hout5 : (dat5 V c).Φ (Fin.last cfg5.N) ⊢ (Pipeline.ΦA spec5 c : sProp 𝕄) := .rfl

theorem before5_0 (t : Fin cfg5.N) (d) : (dat5 V c).before 0 t d = iblk5 V c 0 t :=
  (dat5 V c).before_in_eq_fetched 0 rfl (fun _ => rfl) (fun _ _ _ => rfl) (fun _ => rfl) t d
theorem before5_1 (t : Fin cfg5.N) (d) : (dat5 V c).before 1 t d = iblk5 V c 1 t :=
  (dat5 V c).before_in_eq_fetched 1 rfl (fun _ => rfl) (fun _ _ _ => rfl) (fun _ => rfl) t d
theorem before5_2 (t : Fin cfg5.N) (d) : (dat5 V c).before 2 t d = iblk5 V c 2 t :=
  (dat5 V c).before_in_eq_fetched 2 rfl (fun _ => rfl) (fun _ _ _ => rfl) (fun _ => rfl) t d
theorem before5_3 (t : Fin cfg5.N) (d) : (dat5 V c).before 3 t d = iblk5 V c 3 t :=
  (dat5 V c).before_in_eq_fetched 3 rfl (fun _ => rfl) (fun _ _ _ => rfl) (fun _ => rfl) t d

theorem body_obligation5 : BodyObligation (dat5 (F := F) V c) (defs₀ (F := F)) Variants.none () Set.univ :=
  plainDat_obligation rfl (fun _ _ => rfl) fun t => by
    rw [bigSep_W5, bigSep_W5]
    simp only [before5_0, before5_1, before5_2, before5_3]
    dsimp only [dat5, plainDat]
    show _ ⊢ wp _ _ _ (bodyAt5 t) _
    rw [bodyAt5, kernel5_eq, out5_eq]
    iintro ⟨⟨%d0, H0⟩, ⟨%d1, H1⟩, ⟨%d2, H2⟩, ⟨%d3, H3⟩, ⟨%d4, H4⟩⟩
    iapply (sound_kernel2 c Set.univ _ _ _ _ _ _ _ _ _ _ _ (iblk5 V c 0 t) (iblk5 V c 1 t) (iblk5 V c 2 t) (iblk5 V c 3 t))
    iframe H0 H1 H2 H3
    iexists _; iexact H4

end Cert.Kernel.Hand
-- ==== Proof.K.Reg6.lean ====
import proofs.«420580_j29025388986926_1_alg».proof.Proof.Gen.Kernel.Launch
import proofs.«420580_j29025388986926_1_alg».proof.Proof.Gen.Kernel.Skeleton
import proofs.«420580_j29025388986926_1_alg».proof.Proof.Gen.Kernel.Points
import proofs.«420580_j29025388986926_1_alg».proof.Proof.K.RegKit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def zero6 : Vec F S64x128 .f32 := k6_pay1 (F := F)

def step6 (s : Vec F S64x128 .f32) (x0 : Vec F S5000x64 .f32) (x1 : Vec F S5000x128 .f32) : Vec F S64x128 .f32 :=
  k6_pay2 x0 x1 s

def acc6 (c : Dev nD) : (n : ℕ) → n < cfg6.N → Vec F S64x128 .f32
  | 0, hn => step6 (zero6 (F := F)) (iblk6 V c 0 ⟨0, hn⟩) (iblk6 V c 1 ⟨0, hn⟩)
  | n + 1, hn => step6 (acc6 c n (Nat.lt_of_succ_lt hn)) (iblk6 V c 0 ⟨n + 1, hn⟩) (iblk6 V c 1 ⟨n + 1, hn⟩)

theorem acc6_zero (c : Dev nD) (hn : 0 < cfg6.N) :
    acc6 V c 0 hn = step6 (zero6 (F := F)) (iblk6 V c 0 ⟨0, hn⟩) (iblk6 V c 1 ⟨0, hn⟩) := rfl

theorem acc6_succ (c : Dev nD) (n : ℕ) (hn : n + 1 < cfg6.N) :
    acc6 V c (n + 1) hn = step6 (acc6 V c n (Nat.lt_of_succ_lt hn)) (iblk6 V c 0 ⟨n + 1, hn⟩) (iblk6 V c 1 ⟨n + 1, hn⟩) := rfl

abbrev cond6_1 (i : grid6.Coords) : Prop :=
  (Scalar.cmpi .ne (Scalar.extui (Scalar.cmpi .eq (BitVec.ofNat 32 (i 0).val) 0#32)) 0#32) = 1#1

theorem hcond6_1 : ∀ t : Fin cfg6.N, cond6_1 (grid6.coords t) ↔ t.val = 0 :=
  (by decide +kernel : ∀ t : Fin grid6.N, cond6_1 (grid6.coords t) ↔ t.val = 0)

theorem hcond6_2 : ∀ t : Fin cfg6.N, k6_cond2 (grid6.coords t) = 1#1 ↔ t.val = 9 :=
  (by decide +kernel : ∀ t : Fin grid6.N, k6_cond2 (grid6.coords t) = 1#1 ↔ t.val = 9)

theorem live6_0 : ∀ t : Fin cfg6.N, cfg6.idle 0 (grid6.coords t) = false := fun _ => rfl
theorem live6_1 : ∀ t : Fin cfg6.N, cfg6.idle 1 (grid6.coords t) = false := fun _ => rfl

theorem idle6_2 : ∀ t : Fin cfg6.N, t.val ≠ 9 → cfg6.idle 2 (grid6.coords t) = true :=
  (by decide +kernel : ∀ t : Fin grid6.N, t.val ≠ 9 → cfg6.idle 2 (grid6.coords t) = true)

theorem noFlush6_2 : ∀ t : Fin cfg6.N, t.val ≠ 9 → (cfg6.win 2).flush t = false :=
  (by decide +kernel : ∀ t : Fin grid6.N, t.val ≠ 9 → win6_2.flush t = false)

theorem live6_2 : ∀ t : Fin cfg6.N, t.val = 9 → cfg6.idle 2 (grid6.coords t) = false :=
  (by decide +kernel : ∀ t : Fin grid6.N, t.val = 9 → cfg6.idle 2 (grid6.coords t) = false)

theorem off6 : (![0, 0] : Fin 2 → ℕ) = fun _ => 0 := funext fun a => by fin_cases a <;> rfl

theorem cover6 (p : Vec F S64x128 .f32) (L : List (View.Piece (Elt F) S64x128 .f32)) (y : S64x128.Idx) :
    ∃ pc ∈ ((⟨Rect.unit ![0, 0] S64x128.size inb_S64x128_S64x128_0_0, p⟩ : View.Piece (Elt F) S64x128 .f32) :: L), y ∈ pc.1.set :=
  ⟨_, List.mem_cons_self, View.mem_set_unit_zero off6 inb_S64x128_S64x128_0_0 y⟩

section

variable (c : Dev nD) (E : Set ℕ) (i : grid6.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (x0 : Vec F S5000x64 .f32) (x1 : Vec F S5000x128 .f32)

set_option maxHeartbeats 1000000 in
theorem kernel6_mid (hc1 : ¬ cond6_1 i) (hc2 : ¬ k6_cond2 i = 1#1) (s : Vec F S64x128 .f32) (K : PUnit → sProp 𝕄) :
    iprop(owns c arg1 fullShare x0 ∗ owns c arg2 fullShare x1 ∗ owns c arg4 fullShare s
        ∗ (iprop(owns c arg1 fullShare x0 ∗ owns c arg2 fullShare x1
            ∗ owns c arg4 fullShare (step6 s x0 x1)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%fs, %hfs, HS⟩, Hk⟩
  subst hf0; subst hf1; subst hfs
  sl_exec (disch := first | exact hc1 | exact hc2)
  sl_step
  iapply Hk
  isplitl [H0]; · iexists f0; iframe H0; ipureintro; rfl
  isplitl [H1]; · iexists f1; iframe H1; ipureintro; rfl
  iexists _; iframe HS; ipureintro
  rw [View.read_writes_eq_canon _ _ _ (cover6 _ _), View.canon_unit_zero off6]
  unfold step6
  simp only [View.readAt_eq_ld, View.ld_unit_zero (S := S5000x64) off6, View.ld_unit_zero (S := S5000x128) off6, View.ld_unit_zero (S := S64x128) off6]

set_option maxHeartbeats 1000000 in
theorem kernel6_first (hc1 : cond6_1 i) (hc2 : ¬ k6_cond2 i = 1#1) (K : PUnit → sProp 𝕄) :
    iprop(owns c arg1 fullShare x0 ∗ owns c arg2 fullShare x1 ∗ (∃ d, owns c arg4 fullShare d)
        ∗ (iprop(owns c arg1 fullShare x0 ∗ owns c arg2 fullShare x1
            ∗ owns c arg4 fullShare (step6 (zero6 (F := F)) x0 x1)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%ds, %fs, -, HS⟩, Hk⟩
  subst hf0; subst hf1
  sl_exec (disch := first | exact hc1 | exact hc2)
  sl_step
  iapply Hk
  isplitl [H0]; · iexists f0; iframe H0; ipureintro; rfl
  isplitl [H1]; · iexists f1; iframe H1; ipureintro; rfl
  iexists _; iframe HS; ipureintro
  rw [View.read_writes_eq_canon _ _ _ (cover6 _ _), View.canon_cons_unit_zero off6]
  sl_unfold_run_names
  unfold step6 zero6
  simp only [View.readAt_eq_ld, View.readCov_unit_zero (S := S64x128) _ off6, View.ld_unit_zero (S := S5000x64) off6, View.ld_unit_zero (S := S5000x128) off6, View.ld_unit_zero (S := S64x128) off6]

set_option maxHeartbeats 1000000 in
theorem kernel6_last (hc1 : ¬ cond6_1 i) (hc2 : k6_cond2 i = 1#1) (s : Vec F S64x128 .f32) (K : PUnit → sProp 𝕄) :
    iprop(owns c arg1 fullShare x0 ∗ owns c arg2 fullShare x1 ∗ (∃ d, owns c arg3 fullShare d)
        ∗ owns c arg4 fullShare s
        ∗ (iprop(owns c arg1 fullShare x0 ∗ owns c arg2 fullShare x1
            ∗ owns c arg3 fullShare (step6 s x0 x1) ∗ owns c arg4 fullShare (step6 s x0 x1)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc1 | exact hc2)
  sl_step
  iapply Hk
  isplitl [H0]; · iexists f0; iframe H0; ipureintro; rfl
  isplitl [H1]; · iexists f1; iframe H1; ipureintro; rfl
  isplitl [H3]
  · iexists _; iframe H3; ipureintro
    rw [View.read_writes_eq_canon _ _ _ (cover6 _ _), View.canon_unit_zero off6]
    sl_unfold_run_names
    rw [View.readCov_unit_zero (S := S64x128) _ off6]
    unfold step6
    simp only [View.readAt_eq_ld, View.ld_unit_zero (S := S5000x64) off6, View.ld_unit_zero (S := S5000x128) off6, View.ld_unit_zero (S := S64x128) off6]
  iexists _; iframe HS; ipureintro
  sl_unfold_run_names
  rw [View.read_writes_eq_canon _ _ _ (cover6 _ _), View.canon_unit_zero off6]
  unfold step6
  simp only [View.readAt_eq_ld, View.ld_unit_zero (S := S5000x64) off6, View.ld_unit_zero (S := S5000x128) off6, View.ld_unit_zero (S := S64x128) off6]

end

abbrev scr6 : Memref sig .tc .vmem S64x128 .f32 := Memref.whole cc6_scratch0

/-- The core's scoped buffers other than the accumulator's, at some contents each. -/
abbrev rest6 (c : Dev nD) : sProp 𝕄 := Pipeline.scopedRestBut (Ix := Unit) (Name := ℕ) (U := UR sig nD τ) (Lvl := ℕ) (Val := Elt F) spec6 c [cc6_scratch0]

def Phi6 (c : Dev nD) : (n : ℕ) → n ≤ cfg6.N → sProp 𝕄
  | 0, _ => Pipeline.ΦA spec6 c
  | n + 1, hn => iprop(owns c scr6 fullShare (acc6 V c n hn) ∗ rest6 c ∗ (∃ r, prngReg c r))

theorem Phi6_succ (c : Dev nD) (n : ℕ) (hn : n < cfg6.N) :
    Phi6 V c (n + 1) hn = iprop(owns c scr6 fullShare (acc6 V c n hn) ∗ rest6 c ∗ (∃ r, prngReg c r)) := rfl

theorem Phi6_zero (c : Dev nD) (n : ℕ) (h : n ≤ cfg6.N) (hz : n = 0) : Phi6 V c n h = Pipeline.ΦA spec6 c := by
  subst hz; rfl

theorem Phi6_pos (c : Dev nD) (n : ℕ) (h : n ≤ cfg6.N) (hz : n ≠ 0) :
    Phi6 V c n h = iprop(owns c scr6 fullShare (acc6 V c (n - 1) (by omega)) ∗ rest6 c ∗ (∃ r, prngReg c r)) := by
  cases n with
  | zero => exact absurd rfl hz
  | succ n => rfl

theorem PhiA6_eq (c : Dev nD) :
    (Pipeline.ΦA spec6 c : sProp 𝕄)
      = iprop(iprop(iprop(∃ d, owns c scr6 fullShare d) ∗ rest6 c) ∗ (∃ r, prngReg c r)) := by
  unfold Pipeline.ΦA; rw [scopedRest6_split]; simp only [scr6, owns_whole]; try rfl

theorem acc6_first (c : Dev nD) (t : Fin cfg6.N) (h0 : t.val = 0) :
    acc6 V c t.val t.isLt = step6 (zero6 (F := F)) (iblk6 V c 0 t) (iblk6 V c 1 t) := by
  obtain ⟨n, hn⟩ := t
  cases n with
  | zero => rfl
  | succ n => exact absurd h0 (Nat.succ_ne_zero n)

theorem acc6_later (c : Dev nD) (t : Fin cfg6.N) (h0 : t.val ≠ 0) :
    acc6 V c t.val t.isLt = step6 (acc6 V c (t.val - 1) (Nat.lt_of_le_of_lt (Nat.sub_le _ _) t.isLt)) (iblk6 V c 0 t) (iblk6 V c 1 t) := by
  obtain ⟨n, hn⟩ := t
  cases n with
  | zero => exact absurd rfl h0
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := rfl

theorem q_eq6 (c : Dev nD) (w : Fin cfg6.W) : (dat6 V c).q w = fullShare := rfl

theorem owed_eq6 (c : Dev nD) (t : Fin (cfg6.N + 1)) : (dat6 V c).owed t = 0 := rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d

theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

set_option maxHeartbeats 4000000 in
theorem sound_body6 (c : Dev nD) (t : Fin cfg6.N) :
    iprop((dat6 V c).Φ t.castSucc ∗ (dat6 V c).owesAt () t.castSucc
    ∗ (∃ d, owns c (st6_0 t) fullShare ((dat6 V c).before 0 t d))
    ∗ (∃ d, owns c (st6_1 t) fullShare ((dat6 V c).before 1 t d))
    ∗ (∃ d, owns c (st6_2 t) fullShare ((dat6 V c).before 2 t d)))
      ⊢ wp frame (wpE (defs₀ (F := F)) Variants.none c none) Set.univ (bodyAt6 t) fun _ =>
    iprop((dat6 V c).Φ t.succ ∗ (dat6 V c).owesAt () t.succ
    ∗ (dat6 V c).leavesExact 0 t
    ∗ (dat6 V c).leavesExact 1 t
    ∗ (dat6 V c).leavesExact 2 t) := by
  unfold bodyAt6
  simp only [before6_0, before6_1]
  rw [show (dat6 V c).owesAt () t.succ = (dat6 V c).owesAt () t.castSucc from rfl]
  rw [show (dat6 V c).Φ t.succ = Phi6 V c (t.val + 1) t.isLt from rfl, Phi6_succ, Phi6_castSucc]
  rw [show (dat6 V c).leavesExact 0 t = owns c (st6_0 t) fullShare ((dat6 V c).after 0 t) from by
        unfold Dat.leavesExact; rw [live6_0 t], after6_0,
    show (dat6 V c).leavesExact 1 t = owns c (st6_1 t) fullShare ((dat6 V c).after 1 t) from by
        unfold Dat.leavesExact; rw [live6_1 t], after6_1]
  by_cases h0 : t.val = 0
  · have h9 : t.val ≠ 9 := by omega
    rw [Dat.leavesExact_idle (dat6 V c) 2 t (idle6_2 t h9) (noFlush6_2 t h9)]
    rw [Phi6_zero V c _ _ h0, PhiA6_eq, acc6_first V c t h0]
    iintro ⟨⟨⟨HS, HR⟩, Hg⟩, Ho, ⟨%d0, H0⟩, ⟨%d1, H1⟩, H2⟩
    iapply (kernel6_first c Set.univ (grid6.coords t) _ _ _ _ _ _ _ _ (iblk6 V c 0 t) (iblk6 V c 1 t)
      ((hcond6_1 t).mpr h0) (fun h => h9 ((hcond6_2 t).mp h)) _)
    iframe H0 H1 HS
    iintro ⟨H0, H1, HS⟩
    iframe
  · by_cases h9 : t.val = 9
    · rw [show (dat6 V c).leavesExact 2 t = owns c (st6_2 t) fullShare ((dat6 V c).after 2 t) from by
            unfold Dat.leavesExact; rw [live6_2 t h9], after6_2]
      rw [Phi6_pos V c _ _ h0, acc6_later V c t h0]
      iintro ⟨⟨HS, HR, Hg⟩, Ho, ⟨%d0, H0⟩, ⟨%d1, H1⟩, ⟨%d2, H2⟩⟩
      iapply (kernel6_last c Set.univ (grid6.coords t) _ _ _ _ _ _ _ _ (iblk6 V c 0 t) (iblk6 V c 1 t)
        (fun h => h0 ((hcond6_1 t).mp h)) ((hcond6_2 t).mpr h9) _ _)
      iframe H0 H1 HS
      isplitl [H2]; · iexists _; iexact H2
      iintro ⟨H0, H1, H2, HS⟩
      iframe
    · rw [Dat.leavesExact_idle (dat6 V c) 2 t (idle6_2 t h9) (noFlush6_2 t h9)]
      rw [Phi6_pos V c _ _ h0, acc6_later V c t h0]
      iintro ⟨⟨HS, HR, Hg⟩, Ho, ⟨%d0, H0⟩, ⟨%d1, H1⟩, H2⟩
      iapply (kernel6_mid c Set.univ (grid6.coords t) _ _ _ _ _ _ _ _ (iblk6 V c 0 t) (iblk6 V c 1 t)
        (fun h => h0 ((hcond6_1 t).mp h)) (fun h => h9 ((hcond6_2 t).mp h)) _ _)
      iframe H0 H1 HS
      iintro ⟨H0, H1, HS⟩
      iframe

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := by
  rw [show (dat6 V c).Φ 0 = Phi6 V c 0 (Nat.zero_le _) from rfl]
  exact Idealize.SL.BI.Entails.refl _

theorem hout6 (c : Dev nD) : (dat6 V c).Φ (Fin.last cfg6.N) ⊢ (Pipeline.ΦA spec6 c : sProp 𝕄) := by
  rw [show (dat6 V c).Φ (Fin.last cfg6.N) = Phi6 V c cfg6.N (Nat.le_refl _) from rfl,
    Phi6_pos V c _ _ (by rw [show cfg6.N = 10 from N_6]; decide), PhiA6_eq]
  iintro ⟨HS, HR, Hg⟩
  isplitl [HS HR]
  · isplitl [HS]
    · iexists _; iexact HS
    iexact HR
  iexact Hg

end Cert.Kernel.Hand
-- ==== Proof.K.Reg7.lean ====
import proofs.«420580_j29025388986926_1_alg».proof.Proof.Gen.Kernel.Launch
import proofs.«420580_j29025388986926_1_alg».proof.Proof.Gen.Kernel.Skeleton
import proofs.«420580_j29025388986926_1_alg».proof.Proof.Gen.Kernel.Points
import proofs.«420580_j29025388986926_1_alg».proof.Proof.K.RegKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rPool7 : Rect S64x128 := Rect.unit (s := S64x128) ![0, 0] S64x128.size inb_S64x128_S64x128_0_0
abbrev rW1_7 : Rect S128x128 := Rect.unit (s := S128x128) ![0, 0] S128x128.size inb_S128x128_S128x128_0_0
abbrev rB1_7 : Rect S1x128 := Rect.unit (s := S1x128) ![0, 0] S1x128.size inb_S1x128_S1x128_0_0
abbrev rW2_7 : Rect S128x1 := Rect.unit (s := S128x1) ![0, 0] S128x1.size inb_S128x1_S128x1_0_0
abbrev rB2_7 : Rect S1x1 := Rect.unit (s := S1x1) ![0, 0] S1x1.size inb_S1x1_S1x1_0_0
abbrev rOut7 : Rect S64x1 := Rect.unit (s := S64x1) ![0, 0] S64x1.size inb_S64x1_S64x1_0_0

/-- What the body leaves in the output buffer: its one store, a function of the five input blocks. -/
def out7 (x : Vec F S64x128 .f32) (w1 : Vec F S128x128 .f32) (b1 : Vec F S1x128 .f32) (w2 : Vec F S128x1 .f32) (b2 : Vec F S1x1 .f32) : Vec F S64x1 .f32 :=
  View.canon [⟨rOut7, k7_pay1 (View.ld x rPool7) (View.ld w1 rW1_7) (View.ld b1 rB1_7) (View.ld w2 rW2_7) (View.ld b2 rB2_7)⟩]

set_option maxHeartbeats 1000000 in
/-- The one store covers the output buffer, so what the buffer held before does not matter. -/
theorem sound_kernel7 (E : Set ℕ) (i : grid7.Coords)
    (a0 : Memref sig .tc .vmem S64x128 .f32) (h0 : a0.IsWhole) (a1 : Memref sig .tc .vmem S128x128 .f32) (h1 : a1.IsWhole)
    (a2 : Memref sig .tc .vmem S1x128 .f32) (h2 : a2.IsWhole) (a3 : Memref sig .tc .vmem S128x1 .f32) (h3 : a3.IsWhole)
    (a4 : Memref sig .tc .vmem S1x1 .f32) (h4 : a4.IsWhole) (a5 : Memref sig .tc .vmem S64x1 .f32) (h5 : a5.IsWhole)
    (x : Vec F S64x128 .f32) (w1 : Vec F S128x128 .f32) (b1 : Vec F S1x128 .f32) (w2 : Vec F S128x1 .f32) (b2 : Vec F S1x1 .f32) :
    iprop(owns c a0 fullShare x ∗ owns c a1 fullShare w1 ∗ owns c a2 fullShare b1
        ∗ owns c a3 fullShare w2 ∗ owns c a4 fullShare b2 ∗ ∃ d, owns c a5 fullShare d)
      ⊢ (wp frame (wpE (defs₀ (F := F)) Variants.none c none) E (cc7__mlp_kernel i a0 h0 a1 h1 a2 h2 a3 h3 a4 h4 a5 h5) fun _ =>
          iprop(owns c a0 fullShare x ∗ owns c a1 fullShare w1 ∗ owns c a2 fullShare b1
            ∗ owns c a3 fullShare w2 ∗ owns c a4 fullShare b2 ∗ owns c a5 fullShare (out7 x w1 b1 w2 b2)) : sProp 𝕄) := by
  simp only [cc7__mlp_kernel_eq_skeleton]; unfold cc7__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩⟩
  subst hf0; subst hf1; subst hf2; subst hf3; subst hf4
  sl_exec
  sl_step
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact View.read_writes_eq_canon _ _ _ (View.cover_of_tiled _ S64x1.size (by rfl))

def dat7 : Dat τ (Elt F) Unit ℕ (UR sig nD τ) ℕ cfg7 c :=
  plainDat cfg7 c (fun w => V c (Pipeline.arrRef spec7 w)) fun w t => match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7 (iblk7 V c 0 t) (iblk7 V c 1 t) (iblk7 V c 2 t) (iblk7 V c 3 t) (iblk7 V c 4 t)

theorem A_eq7 (w : Fin cfg7.W) : (dat7 V c).A w = V c (Pipeline.arrRef spec7 w) := rfl
theorem q_eq7 (w : Fin cfg7.W) : (dat7 V c).q w = fullShare := rfl
theorem owed_eq7 (t : Fin (cfg7.N + 1)) : (dat7 V c).owed t = 0 := rfl
theorem after7_5 (t : Fin cfg7.N) :
    (dat7 V c).after 5 t = out7 (iblk7 V c 0 t) (iblk7 V c 1 t) (iblk7 V c 2 t) (iblk7 V c 3 t) (iblk7 V c 4 t) := by
  dsimp only [dat7, plainDat]
theorem hin7 : (Pipeline.ΦA spec7 c : sProp 𝕄) ⊢ (dat7 V c).Φ 0 := .rfl
theorem hout7 : (dat7 V c).Φ (Fin.last cfg7.N) ⊢ (Pipeline.ΦA spec7 c : sProp 𝕄) := .rfl

theorem before7_0 (t : Fin cfg7.N) (d) : (dat7 V c).before 0 t d = iblk7 V c 0 t :=
  (dat7 V c).before_in_eq_fetched 0 rfl (fun _ => rfl) (fun _ _ _ => rfl) (fun _ => rfl) t d
theorem before7_1 (t : Fin cfg7.N) (d) : (dat7 V c).before 1 t d = iblk7 V c 1 t :=
  (dat7 V c).before_in_eq_fetched 1 rfl (fun _ => rfl) (fun _ _ _ => rfl) (fun _ => rfl) t d
theorem before7_2 (t : Fin cfg7.N) (d) : (dat7 V c).before 2 t d = iblk7 V c 2 t :=
  (dat7 V c).before_in_eq_fetched 2 rfl (fun _ => rfl) (fun _ _ _ => rfl) (fun _ => rfl) t d
theorem before7_3 (t : Fin cfg7.N) (d) : (dat7 V c).before 3 t d = iblk7 V c 3 t :=
  (dat7 V c).before_in_eq_fetched 3 rfl (fun _ => rfl) (fun _ _ _ => rfl) (fun _ => rfl) t d
theorem before7_4 (t : Fin cfg7.N) (d) : (dat7 V c).before 4 t d = iblk7 V c 4 t :=
  (dat7 V c).before_in_eq_fetched 4 rfl (fun _ => rfl) (fun _ _ _ => rfl) (fun _ => rfl) t d

theorem body_obligation7 : BodyObligation (dat7 (F := F) V c) (defs₀ (F := F)) Variants.none () Set.univ :=
  plainDat_obligation rfl (fun _ _ => rfl) fun t => by
    rw [bigSep_W7, bigSep_W7]
    simp only [before7_0, before7_1, before7_2, before7_3, before7_4]
    dsimp only [dat7, plainDat]
    show _ ⊢ wp _ _ _ (bodyAt7 t) _
    iintro ⟨⟨%d0, H0⟩, ⟨%d1, H1⟩, ⟨%d2, H2⟩, ⟨%d3, H3⟩, ⟨%d4, H4⟩, ⟨%d5, H5⟩⟩
    iapply (sound_kernel7 c Set.univ _ _ _ _ _ _ _ _ _ _ _ _ _ (iblk7 V c 0 t) (iblk7 V c 1 t) (iblk7 V c 2 t) (iblk7 V c 3 t) (iblk7 V c 4 t))
    iframe H0 H1 H2 H3 H4
    iexists _; iexact H5

end Cert.Kernel.Hand
-- ==== Proof.K.Chain.lean ====
import proofs.«420580_j29025388986926_1_alg».proof.Proof.K.Reg0
import proofs.«420580_j29025388986926_1_alg».proof.Proof.K.Reg1
import proofs.«420580_j29025388986926_1_alg».proof.Proof.K.Reg2
import proofs.«420580_j29025388986926_1_alg».proof.Proof.K.Reg3
import proofs.«420580_j29025388986926_1_alg».proof.Proof.K.Reg4
import proofs.«420580_j29025388986926_1_alg».proof.Proof.K.Reg5
import proofs.«420580_j29025388986926_1_alg».proof.Proof.K.Reg6
import proofs.«420580_j29025388986926_1_alg».proof.Proof.K.Reg7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev tcView (W : Dev nD → Valuation τ sig (Elt F)) : (c : Dev nD) → (b : Ref sig .tc) → Buf (Elt F) ((c : Thread nD τ).loc b) :=
  fun c b => W c b

abbrev memLaunch : Dev nD → Valuation τ sig (Elt F) := fun c b => m ((c : Dev nD), b)

/-- What a region leaves: its arrays at `A`, every other buffer as it was entered. -/
def leave {gr W : ℕ} (spec : Fin W → Pipeline.WinSpec sig gr) (E : Dev nD → Valuation τ sig (Elt F))
    (A : (c : Dev nD) → (w : Fin W) → Buf (Elt F) ((spec w).arr.view.loc (c.tc : Thread nD τ))) (c : Dev nD) : Valuation τ sig (Elt F) :=
  Pipeline.withArrays spec c (E c) (A c)

theorem leave_arr {gr W : ℕ} {spec : Fin W → Pipeline.WinSpec sig gr} (hinj : Function.Injective (Pipeline.arrRef spec))
    (E : Dev nD → Valuation τ sig (Elt F)) (A) (c : Dev nD) (w : Fin W) :
    leave spec E A c (Proc.devRef .tc (Pipeline.arrRef spec w)) = A c w :=
  Pipeline.withArrays_arr spec hinj c _ _ w

theorem leave_rest {gr W : ℕ} (spec : Fin W → Pipeline.WinSpec sig gr) (E : Dev nD → Valuation τ sig (Elt F)) (A) (c : Dev nD)
    (b : Ref sig .tc) (hb : ∀ w, Pipeline.arrRef spec w ≠ b) : leave spec E A c (Proc.devRef .tc b) = E c (Proc.devRef .tc b) :=
  Pipeline.withArrays_of_ne spec c _ _ b hb

def memZp0 : Dev nD → Valuation τ sig (Elt F) :=
  leave spec0 (memLaunch m) fun c w => (dat0 (tcView (memLaunch m)) c).arrAt w cfg0.N
def memZr0 : Dev nD → Valuation τ sig (Elt F) :=
  leave spec1 (memZp0 m) fun c w => (dat1 (tcView (memZp0 m)) c).arrAt w cfg1.N
abbrev memAgg0 : Dev nD → Valuation τ sig (Elt F) := fun c => StableHlo.after hostOps2 (memZr0 m c)
def memH1 : Dev nD → Valuation τ sig (Elt F) :=
  leave spec2 (memAgg0 m) fun c w => (dat2 (tcView (memAgg0 m)) c).arrAt w cfg2.N
def memZp1 : Dev nD → Valuation τ sig (Elt F) :=
  leave spec3 (memH1 m) fun c w => (dat3 (tcView (memH1 m)) c).arrAt w cfg3.N
def memZr1 : Dev nD → Valuation τ sig (Elt F) :=
  leave spec4 (memZp1 m) fun c w => (dat4 (tcView (memZp1 m)) c).arrAt w cfg4.N
abbrev memAgg1 : Dev nD → Valuation τ sig (Elt F) := fun c => StableHlo.after hostOps5 (memZr1 m c)
def memH2 : Dev nD → Valuation τ sig (Elt F) :=
  leave spec5 (memAgg1 m) fun c w => (dat5 (tcView (memAgg1 m)) c).arrAt w cfg5.N
abbrev memOneHot : Dev nD → Valuation τ sig (Elt F) := fun c => StableHlo.after hostOps6 (memH2 m c)
def memPool : Dev nD → Valuation τ sig (Elt F) :=
  leave spec6 (memOneHot m) fun c w => (dat6 (tcView (memOneHot m)) c).arrAt w cfg6.N
abbrev memMean : Dev nD → Valuation τ sig (Elt F) := fun c => StableHlo.after hostOps7 (memPool m c)
def memOut : Dev nD → Valuation τ sig (Elt F) :=
  leave spec7 (memMean m) fun c w => (dat7 (tcView (memMean m)) c).arrAt w cfg7.N

theorem exitAt0 (c : Dev nD) (w : Fin cfg0.W) :
    memZp0 m c (Proc.devRef .tc (Pipeline.arrRef spec0 w)) = (dat0 (tcView (memLaunch m)) c).arrAt w cfg0.N :=
  leave_arr launch0.win.arr_inj _ _ c w
theorem exitAt1 (c : Dev nD) (w : Fin cfg1.W) :
    memZr0 m c (Proc.devRef .tc (Pipeline.arrRef spec1 w)) = (dat1 (tcView (memZp0 m)) c).arrAt w cfg1.N :=
  leave_arr launch1.win.arr_inj _ _ c w
theorem exitAt2 (c : Dev nD) (w : Fin cfg2.W) :
    memH1 m c (Proc.devRef .tc (Pipeline.arrRef spec2 w)) = (dat2 (tcView (memAgg0 m)) c).arrAt w cfg2.N :=
  leave_arr launch2.win.arr_inj _ _ c w
theorem exitAt3 (c : Dev nD) (w : Fin cfg3.W) :
    memZp1 m c (Proc.devRef .tc (Pipeline.arrRef spec3 w)) = (dat3 (tcView (memH1 m)) c).arrAt w cfg3.N :=
  leave_arr launch3.win.arr_inj _ _ c w
theorem exitAt4 (c : Dev nD) (w : Fin cfg4.W) :
    memZr1 m c (Proc.devRef .tc (Pipeline.arrRef spec4 w)) = (dat4 (tcView (memZp1 m)) c).arrAt w cfg4.N :=
  leave_arr launch4.win.arr_inj _ _ c w
theorem exitAt5 (c : Dev nD) (w : Fin cfg5.W) :
    memH2 m c (Proc.devRef .tc (Pipeline.arrRef spec5 w)) = (dat5 (tcView (memAgg1 m)) c).arrAt w cfg5.N :=
  leave_arr launch5.win.arr_inj _ _ c w
theorem exitAt6 (c : Dev nD) (w : Fin cfg6.W) :
    memPool m c (Proc.devRef .tc (Pipeline.arrRef spec6 w)) = (dat6 (tcView (memOneHot m)) c).arrAt w cfg6.N :=
  leave_arr launch6.win.arr_inj _ _ c w
theorem exitAt7 (c : Dev nD) (w : Fin cfg7.W) :
    memOut m c (Proc.devRef .tc (Pipeline.arrRef spec7 w)) = (dat7 (tcView (memMean m)) c).arrAt w cfg7.N :=
  leave_arr launch7.win.arr_inj _ _ c w

abbrev adm : (p : Fin 8) → (pcfgs (F := F) p).Adm := fun p => (cfgs p).toPCfg_adm

def pdats : (p : Fin 8) → (c : Dev nD) → Dat τ (Elt F) Unit ℕ (UR sig nD τ) ℕ (Pipeline.pin (pcfgs (F := F)) adm p) c
  | ⟨0, _⟩ => fun c => dat0 (tcView (memLaunch m)) c
  | ⟨1, _⟩ => fun c => dat1 (tcView (memZp0 m)) c
  | ⟨2, _⟩ => fun c => dat2 (tcView (memAgg0 m)) c
  | ⟨3, _⟩ => fun c => dat3 (tcView (memH1 m)) c
  | ⟨4, _⟩ => fun c => dat4 (tcView (memZp1 m)) c
  | ⟨5, _⟩ => fun c => dat5 (tcView (memAgg1 m)) c
  | ⟨6, _⟩ => fun c => dat6 (tcView (memOneHot m)) c
  | ⟨7, _⟩ => fun c => dat7 (tcView (memMean m)) c

abbrev 𝒱₀ : Variants := Variants.none

abbrev L : GSem nD τ sig → Finset Unit := fun _ => ∅
abbrev lv : GSem nD τ sig → Unit → ℕ := fun _ _ => 0

abbrev Rest (c : Dev nD) : sProp 𝕄 := iprop((∃ r, prngReg c r) ∗ ∃ W, owes (c : Thread nD τ) (0 : CellTallies nD τ sig Unit) W)

abbrev stateAt (W : Dev nD → Valuation τ sig (Elt F)) (c : Dev nD) : sProp 𝕄 :=
  iprop(StableHlo.held (c : Thread nD τ) (Pipeline.ucRefs τ sig) (W c) ∗ Rest c)

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem hostOps2_fresh : (hostOps2 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Seg.lean ====
import proofs.«420580_j29025388986926_1_alg».proof.Proof.K.Chain

noncomputable section

namespace Cert.Kernel.Hand

open Cert.Kernel Cert.Kernel.Gen Idealize.ShloMosaic Idealize.SL Idealize.SL.RA Idealize.SL.BI Idealize.SL.BI.BIBase Idealize.SL.ProofMode
open scoped Idealize.SL.BI

variable {F : FTy → Type} [FloatOps F]

local notation "𝕄" => MT nD τ sig Unit (Elt F) ℕ (UR sig nD τ) ℕ

variable (m : (ℓ : Loc nD τ sig) → Buf (Elt F) ℓ)

/-- A region as an item of the run: its arrays are split off the core's buffers at entry and put back beside the rest at exit. -/
def seg (p : Fin 8) (lf : Pipeline.LaunchFacts (nD := nD) (τ := τ) cfgs p) (V V' : Dev nD → Valuation τ sig (Elt F))
    (hb : ∀ c, Pipeline.BodyObligation (pdats m p c) (defs₀ (F := F)) Variants.none () Set.univ)
    (h0 : ∀ c t, (pdats m p c).owed t = 0) (hU : ∀ c, (pdats m p c).recorded 0 = Set.univ) (hq : ∀ c w, (pdats m p c).q w = fullShare)
    (hA : ∀ c w, (pdats m p c).A w = tcView V c (Pipeline.arrRef (cfgs p).spec w))
    (hi : ∀ c, (Pipeline.ΦA (cfgs p).spec c : sProp 𝕄) ⊢ (pdats m p c).Φ 0)
    (ho : ∀ c, (pdats m p c).Φ (Fin.last (cfgs p).N) ⊢ (Pipeline.ΦA (cfgs p).spec c : sProp 𝕄))
    (hF : ∀ c w, (pdats m p c).arrAt w (cfgs p).N = tcView V' c (Pipeline.arrRef (cfgs p).spec w))
    (hR : ∀ c b, (∀ w, Pipeline.arrRef (cfgs p).spec w ≠ b) → V' c (Proc.devRef .tc b) = V c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre := stateAt V
  post := stateAt V'
  X c := iprop(∃ r, prngReg c r)
  Y c := iprop(∃ r, prngReg c r)
  Z c := Pipeline.unscopedRest (cfgs p).spec c (tcView V c)
  hentry c := by
    have hs := Pipeline.arrays_of_unscopedBufs _ _ (pdats m) lf.win lf.arr_whole c ((pdats m p c).share_full (hq c)) (tcView V c) (hA c)
    rw [Pipeline.unscopedBufs_held] at hs
    iintro ⟨⟨Hbufs, Hgen, %W, Howe⟩, -⟩
    ihave ⟨Harr, Hrest⟩ := hs $$ Hbufs
    imodintro
    iframe Harr Hgen Hrest
    isplitr; · unfold Pipeline.prefHeld; rw [show (Finset.univ : Finset (Fin 0)) = ∅ from rfl, BI.bigSep_empty]; iempintro
    iexists W; isplitr; · ipureintro; exact fun _ _ => Or.inl (hU c ▸ trivial)
    rw [h0]; iexact Howe
  hin c := BIBase.Entails.trans (by unfold Pipeline.ΦA; iintro ⟨Hgen, -, Hsc⟩; iframe) (hi c)
  hout c := (ho c).trans (by
    rw [Pipeline.ownSems0_none]; unfold Pipeline.ΦA
    iintro ⟨Hsc, Hgen⟩; iframe; iempintro)
  hexit c := by
    have hj := Pipeline.unscopedBufs_of_arrays _ _ lf.win lf.arr_whole c (pdats m) ((pdats m p c).share_full (hq c)) (tcView V c) (tcView V' c) _ (hF c)
      fun b hb => hR c b fun w e => hb (Finset.mem_image.mpr ⟨w, Finset.mem_univ _, e⟩)
    rw [Pipeline.unscopedBufs_held] at hj
    iintro ⟨Harr, ⟨%W, -, Howe⟩, Hgen, Hrest⟩
    imodintro
    isplitl [Harr Hrest]
    · iapply hj; iframe
    isplitl [Hgen]; · iexact Hgen
    iexists W; rw [h0]; iexact Howe

def item0 := seg m 0 launch0 (memLaunch m) (memZp0 m) (body_obligation0 _) (owed_eq0 _) (fun _ => rfl) (q_eq0 _) (A_eq0 _) (hin0 _) (hout0 _) (fun c w => (exitAt0 m c w).symm) (leave_rest _ _ _)
def item1 := seg m 1 launch1 (memZp0 m) (memZr0 m) (body_obligation1 _) (owed_eq1 _) (fun _ => rfl) (q_eq1 _) (A_eq1 _) (hin1 _) (hout1 _) (fun c w => (exitAt1 m c w).symm) (leave_rest _ _ _)
def item2 := seg m 2 launch2 (memAgg0 m) (memH1 m) (body_obligation2 _) (owed_eq2 _) (fun _ => rfl) (q_eq2 _) (A_eq2 _) (hin2 _) (hout2 _) (fun c w => (exitAt2 m c w).symm) (leave_rest _ _ _)
def item3 := seg m 3 launch3 (memH1 m) (memZp1 m) (body_obligation3 _) (owed_eq3 _) (fun _ => rfl) (q_eq3 _) (A_eq3 _) (hin3 _) (hout3 _) (fun c w => (exitAt3 m c w).symm) (leave_rest _ _ _)
def item4 := seg m 4 launch4 (memZp1 m) (memZr1 m) (body_obligation4 _) (owed_eq4 _) (fun _ => rfl) (q_eq4 _) (A_eq4 _) (hin4 _) (hout4 _) (fun c w => (exitAt4 m c w).symm) (leave_rest _ _ _)
def item5 := seg m 5 launch5 (memAgg1 m) (memH2 m) (body_obligation5 _) (owed_eq5 _) (fun _ => rfl) (q_eq5 _) (A_eq5 _) (hin5 _) (hout5 _) (fun c w => (exitAt5 m c w).symm) (leave_rest _ _ _)
def item6 := seg m 6 launch6 (memOneHot m) (memPool m) (body_obligation6 _) (owed_eq6 _) (fun _ => rfl) (q_eq6 _) (A_eq6 _) (hin6 _) (hout6 _) (fun c w => (exitAt6 m c w).symm) (leave_rest _ _ _)
def item7 := seg m 7 launch7 (memMean m) (memOut m) (body_obligation7 _) (owed_eq7 _) (fun _ => rfl) (q_eq7 _) (A_eq7 _) (hin7 _) (hout7 _) (fun c w => (exitAt7 m c w).symm) (leave_rest _ _ _)

end Cert.Kernel.Hand

end
-- ==== Proof.K.Run.lean ====
import proofs.«420580_j29025388986926_1_alg».proof.Proof.K.Seg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev items : List (Pipeline.Seg (pcfgs (F := F)) adm (pdats m) () defs₀ 𝒱₀ L lv) :=
  [ .region (item0 m),
    .region (item1 m),
    .host (hostItem hostOps2 hostOps2_sub hostOps2_fresh (memZr0 m)),
    .region (item2 m),
    .region (item3 m),
    .region (item4 m),
    .host (hostItem hostOps5 hostOps5_sub hostOps5_fresh (memZr1 m)),
    .region (item5 m),
    .host (hostItem hostOps6 hostOps6_sub hostOps6_fresh (memH2 m)),
    .region (item6 m),
    .host (hostItem hostOps7 hostOps7_sub hostOps7_fresh (memPool m)),
    .region (item7 m) ]

theorem main_items (c : Dev nD) : main (F := F) c = Pipeline.Seg.run (items m) := by
  rw [Pipeline.Seg.run_eq_chain]
  exact main_chain c

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = memOut m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stateAt (memLaunch m))
    (Tₙ := fun c => iprop(StableHlo.held (c : Thread nD τ) (Pipeline.ucRefs τ sig) (memOut m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show stateAt (memOut m) c ⊢ _
        iintro ⟨Hbufs, Hgen, Howe⟩
        isplitl [Hbufs Hgen]
        · isplitl [Hbufs]; · iexact Hbufs
          iexact Hgen
        iexact Howe⟩)
    (hinit := by
      refine Pipeline.initEach L lv fun c => ?_
      rw [show unscopedBufs c (fun b => m ((c : Thread nD τ).loc b)) = StableHlo.held (c : Thread nD τ) (Pipeline.ucRefs τ sig) (memLaunch m c)
        from Pipeline.unscopedBufs_held c (memLaunch m c)]
      iintro ⟨⟨Hbufs, -, Howe, -, Hgen, -⟩, -⟩
      imodintro
      isplitl [Hbufs]; · iexact Hbufs
      isplitl [Hgen]; · iexists _; iexact Hgen
      iexists ∅; iexact Howe)
    (QY := fun c s => ∀ b ∈ Pipeline.ucRefs τ sig, s.mem (((c : Thread nD τ)).1, b) = memOut m c b)
    (hfin := fun c s' => by
      iintro ⟨⟨Hbufs, -⟩, HSI⟩
      unfold StableHlo.held
      imodintro
      iapply (pointsTo_read_all (Pipeline.ucRefs τ sig) (fun b => (((c : Thread nD τ)).1, b)) (memOut m c) s')
      isplitl [Hbufs] <;> iassumption)
    (hQ := fun s h c => h c)

end Cert.Kernel.Hand

end
-- ==== Proof.K.Frame.lean ====
import proofs.«420580_j29025388986926_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hostOps2_W : List (Ref sig .tc) := [main_v2, main_v3, main_v4, main_v5, main_cst, main_v6, main_c, main_v7, main_v8, main_c_0, main_v9, main_v10, main_v11, main_v12, main_cst_1, main_v13, main_v14, main_cst_2, main_v15, main_v16, main_v17, main_c_3, main_v18, main_v19, main_c_4, main_v20, main_v21, main_v22, main_v23, main_v24, main_c_5, main_v25, main_v26, main_c_6, main_v27, main_v28, main_v29, main_v30, main_v31, main_c_7, main_v32, main_v33, main_c_8, main_v34, main_v35, main_v36, main_v37, main_v38, main_v39, main_v40, main_v41, main_v42, main_cst_9, main_v43, main_v44, main_v45, main_v46, main_v47, main_v48, main_v49, main_v50, main_v51, main_v52, main_v53, main_v54, main_cst_10, main_v55, main_c_11, main_v56, main_v57, main_c_12, main_v58, main_v59, main_v60, main_v61, main_cst_13, main_v62, main_v63, main_cst_14, main_v64, main_v65, main_v66, main_c_15, main_v67, main_v68, main_c_16, main_v69, main_v70, main_v71, main_v72, main_v73, main_c_17, main_v74, main_v75, main_c_18, main_v76, main_v77, main_v78, main_v79, main_v80, main_c_19, main_v81, main_v82, main_c_20, main_v83, main_v84, main_v85, main_v86, main_v87, main_v88, main_v89, main_v90, main_v91, main_cst_21, main_v92, main_v93, main_v94, main_v95, main_v96, main_v97, main_v98, main_v99, main_v100, main_v101]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev hostOps5_W : List (Ref sig .tc) := [main_v105, main_v106, main_v107, main_v108, main_cst_22, main_v109, main_c_23, main_v110, main_v111, main_c_24, main_v112, main_v113, main_v114, main_v115, main_cst_25, main_v116, main_v117, main_cst_26, main_v118, main_v119, main_v120, main_c_27, main_v121, main_v122, main_c_28, main_v123, main_v124, main_v125, main_v126, main_v127, main_c_29, main_v128, main_v129, main_c_30, main_v130, main_v131, main_v132, main_v133, main_v134, main_c_31, main_v135, main_v136, main_c_32, main_v137, main_v138, main_v139, main_v140, main_v141, main_v142, main_v143, main_v144, main_v145, main_cst_33, main_v146, main_v147, main_v148, main_v149, main_v150, main_v151, main_v152, main_v153, main_v154, main_v155, main_v156, main_v157, main_cst_34, main_v158, main_c_35, main_v159, main_v160, main_c_36, main_v161, main_v162, main_v163, main_v164, main_cst_37, main_v165, main_v166, main_cst_38, main_v167, main_v168, main_v169, main_c_39, main_v170, main_v171, main_c_40, main_v172, main_v173, main_v174, main_v175, main_v176, main_c_41, main_v177, main_v178, main_c_42, main_v179, main_v180, main_v181, main_v182, main_v183, main_c_43, main_v184, main_v185, main_c_44, main_v186, main_v187, main_v188, main_v189, main_v190, main_v191, main_v192, main_v193, main_v194, main_cst_45, main_v195, main_v196, main_v197, main_v198, main_v199, main_v200, main_v201, main_v202, main_v203, main_v204]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev hostOps6_W : List (Ref sig .tc) := [main_v206, main_v207, main_v208, main_v209, main_v210, main_v211, main_v212, main_cst_46, main_v213]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev hostOps7_W : List (Ref sig .tc) := [main_cst_47, main_v215, main_v216, main_v217, main_v218, main_v219, main_v220, main_v221]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer outside the region's arrays bypasses the region; its arrays outside `outs` are given to be left as found. -/
theorem keep_of_windows {W : ℕ} (ref : Fin W → Ref sig .tc) (outs : List (Ref sig .tc)) {X E : Valuation τ sig (Elt F)}
    (hrest : ∀ b, (∀ w, ref w ≠ b) → X (Proc.devRef .tc b) = E (Proc.devRef .tc b))
    (harr : ∀ w, ref w ∉ outs → X (Proc.devRef .tc (ref w)) = E (Proc.devRef .tc (ref w)))
    (b : Ref sig .tc) (hb : b ∉ outs) : X (Proc.devRef .tc b) = E (Proc.devRef .tc b) := by
  by_cases h : ∀ w, ref w ≠ b
  · exact hrest b h
  · obtain ⟨w, hw⟩ := not_forall.mp h
    obtain rfl := not_not.mp hw
    exact harr w hb

theorem keep0 (c : Dev nD) : ∀ b ∉ ([main_v0] : List (Ref sig .tc)), memZp0 m c (Proc.devRef .tc b) = memLaunch m c (Proc.devRef .tc b) :=
  keep_of_windows (Pipeline.arrRef spec0) _ (leave_rest _ _ _ c) fun w hw =>
    (exitAt0 m c w).trans (((dat0 (tcView (memLaunch m)) c).arrAt_in w
      ((by decide : ∀ w : Fin cfg0.W, Pipeline.arrRef spec0 w ∉ [main_v0] → (cfg0.win w).isOut = false) w hw) _).trans (A_eq0 (tcView (memLaunch m)) c w))
theorem keep1 (c : Dev nD) : ∀ b ∉ ([main_v1] : List (Ref sig .tc)), memZr0 m c (Proc.devRef .tc b) = memZp0 m c (Proc.devRef .tc b) :=
  keep_of_windows (Pipeline.arrRef spec1) _ (leave_rest _ _ _ c) fun w hw =>
    (exitAt1 m c w).trans (((dat1 (tcView (memZp0 m)) c).arrAt_in w
      ((by decide : ∀ w : Fin cfg1.W, Pipeline.arrRef spec1 w ∉ [main_v1] → (cfg1.win w).isOut = false) w hw) _).trans (A_eq1 (tcView (memZp0 m)) c w))
theorem keep2 (c : Dev nD) : ∀ b ∉ ([main_v102] : List (Ref sig .tc)), memH1 m c (Proc.devRef .tc b) = memAgg0 m c (Proc.devRef .tc b) :=
  keep_of_windows (Pipeline.arrRef spec2) _ (leave_rest _ _ _ c) fun w hw =>
    (exitAt2 m c w).trans (((dat2 (tcView (memAgg0 m)) c).arrAt_in w
      ((by decide : ∀ w : Fin cfg2.W, Pipeline.arrRef spec2 w ∉ [main_v102] → (cfg2.win w).isOut = false) w hw) _).trans (A_eq2 (tcView (memAgg0 m)) c w))
theorem keep3 (c : Dev nD) : ∀ b ∉ ([main_v103] : List (Ref sig .tc)), memZp1 m c (Proc.devRef .tc b) = memH1 m c (Proc.devRef .tc b) :=
  keep_of_windows (Pipeline.arrRef spec3) _ (leave_rest _ _ _ c) fun w hw =>
    (exitAt3 m c w).trans (((dat3 (tcView (memH1 m)) c).arrAt_in w
      ((by decide : ∀ w : Fin cfg3.W, Pipeline.arrRef spec3 w ∉ [main_v103] → (cfg3.win w).isOut = false) w hw) _).trans (A_eq3 (tcView (memH1 m)) c w))
theorem keep4 (c : Dev nD) : ∀ b ∉ ([main_v104] : List (Ref sig .tc)), memZr1 m c (Proc.devRef .tc b) = memZp1 m c (Proc.devRef .tc b) :=
  keep_of_windows (Pipeline.arrRef spec4) _ (leave_rest _ _ _ c) fun w hw =>
    (exitAt4 m c w).trans (((dat4 (tcView (memZp1 m)) c).arrAt_in w
      ((by decide : ∀ w : Fin cfg4.W, Pipeline.arrRef spec4 w ∉ [main_v104] → (cfg4.win w).isOut = false) w hw) _).trans (A_eq4 (tcView (memZp1 m)) c w))
theorem keep5 (c : Dev nD) : ∀ b ∉ ([main_v205] : List (Ref sig .tc)), memH2 m c (Proc.devRef .tc b) = memAgg1 m c (Proc.devRef .tc b) :=
  keep_of_windows (Pipeline.arrRef spec5) _ (leave_rest _ _ _ c) fun w hw =>
    (exitAt5 m c w).trans (((dat5 (tcView (memAgg1 m)) c).arrAt_in w
      ((by decide : ∀ w : Fin cfg5.W, Pipeline.arrRef spec5 w ∉ [main_v205] → (cfg5.win w).isOut = false) w hw) _).trans (A_eq5 (tcView (memAgg1 m)) c w))
theorem keep6 (c : Dev nD) : ∀ b ∉ ([main_v214] : List (Ref sig .tc)), memPool m c (Proc.devRef .tc b) = memOneHot m c (Proc.devRef .tc b) :=
  keep_of_windows (Pipeline.arrRef spec6) _ (leave_rest _ _ _ c) fun w hw =>
    (exitAt6 m c w).trans (((dat6 (tcView (memOneHot m)) c).arrAt_in w
      ((by decide : ∀ w : Fin cfg6.W, Pipeline.arrRef spec6 w ∉ [main_v214] → (cfg6.win w).isOut = false) w hw) _).trans (A_eq6 (tcView (memOneHot m)) c w))
theorem keep7 (c : Dev nD) : ∀ b ∉ ([main_v222] : List (Ref sig .tc)), memOut m c (Proc.devRef .tc b) = memMean m c (Proc.devRef .tc b) :=
  keep_of_windows (Pipeline.arrRef spec7) _ (leave_rest _ _ _ c) fun w hw =>
    (exitAt7 m c w).trans (((dat7 (tcView (memMean m)) c).arrAt_in w
      ((by decide : ∀ w : Fin cfg7.W, Pipeline.arrRef spec7 w ∉ [main_v222] → (cfg7.win w).isOut = false) w hw) _).trans (A_eq7 (tcView (memMean m)) c w))

theorem keep_hostOps2 (c : Dev nD) : ∀ b ∉ hostOps2_W, memAgg0 m c (Proc.devRef .tc b) = memZr0 m c (Proc.devRef .tc b) :=
  fun _ hb => StableHlo.after_of_writes_sub hostOps2 _ hostOps2_writes hb
theorem keep_hostOps5 (c : Dev nD) : ∀ b ∉ hostOps5_W, memAgg1 m c (Proc.devRef .tc b) = memZr1 m c (Proc.devRef .tc b) :=
  fun _ hb => StableHlo.after_of_writes_sub hostOps5 _ hostOps5_writes hb
theorem keep_hostOps6 (c : Dev nD) : ∀ b ∉ hostOps6_W, memOneHot m c (Proc.devRef .tc b) = memH2 m c (Proc.devRef .tc b) :=
  fun _ hb => StableHlo.after_of_writes_sub hostOps6 _ hostOps6_writes hb
theorem keep_hostOps7 (c : Dev nD) : ∀ b ∉ hostOps7_W, memMean m c (Proc.devRef .tc b) = memPool m c (Proc.devRef .tc b) :=
  fun _ hb => StableHlo.after_of_writes_sub hostOps7 _ hostOps7_writes hb

/-- A buffer unwritten up to a boundary, and unwritten by the next item, is unwritten up to the next boundary. -/
theorem launch_step {X E : Valuation τ sig (Elt F)} {c : Dev nD} {wE wK : List (Ref sig .tc)}
    (hk : ∀ b ∉ wK, X (Proc.devRef .tc b) = E (Proc.devRef .tc b))
    (hE : ∀ b ∉ wE, E (Proc.devRef .tc b) = m ((c : Thread nD τ).loc b)) :
    ∀ b ∉ wE ++ wK, X (Proc.devRef .tc b) = m ((c : Thread nD τ).loc b) := fun b hb =>
  (hk b fun h => hb (List.mem_append_right _ h)).trans (hE b fun h => hb (List.mem_append_left _ h))

abbrev wr_memZp0 : List (Ref sig .tc) := [main_v0]
theorem launch_memZp0 (c : Dev nD) : ∀ b ∉ wr_memZp0, memZp0 m c (Proc.devRef .tc b) = m ((c : Thread nD τ).loc b) := keep0 m c
abbrev wr_memZr0 : List (Ref sig .tc) := wr_memZp0 ++ [main_v1]
theorem launch_memZr0 (c : Dev nD) : ∀ b ∉ wr_memZr0, memZr0 m c (Proc.devRef .tc b) = m ((c : Thread nD τ).loc b) :=
  launch_step m (keep1 m c) (launch_memZp0 m c)
abbrev wr_memAgg0 : List (Ref sig .tc) := wr_memZr0 ++ hostOps2_W
theorem launch_memAgg0 (c : Dev nD) : ∀ b ∉ wr_memAgg0, memAgg0 m c (Proc.devRef .tc b) = m ((c : Thread nD τ).loc b) :=
  launch_step m (keep_hostOps2 m c) (launch_memZr0 m c)
abbrev wr_memH1 : List (Ref sig .tc) := wr_memAgg0 ++ [main_v102]
theorem launch_memH1 (c : Dev nD) : ∀ b ∉ wr_memH1, memH1 m c (Proc.devRef .tc b) = m ((c : Thread nD τ).loc b) :=
  launch_step m (keep2 m c) (launch_memAgg0 m c)
abbrev wr_memZp1 : List (Ref sig .tc) := wr_memH1 ++ [main_v103]
theorem launch_memZp1 (c : Dev nD) : ∀ b ∉ wr_memZp1, memZp1 m c (Proc.devRef .tc b) = m ((c : Thread nD τ).loc b) :=
  launch_step m (keep3 m c) (launch_memH1 m c)
abbrev wr_memZr1 : List (Ref sig .tc) := wr_memZp1 ++ [main_v104]
theorem launch_memZr1 (c : Dev nD) : ∀ b ∉ wr_memZr1, memZr1 m c (Proc.devRef .tc b) = m ((c : Thread nD τ).loc b) :=
  launch_step m (keep4 m c) (launch_memZp1 m c)
abbrev wr_memAgg1 : List (Ref sig .tc) := wr_memZr1 ++ hostOps5_W
theorem launch_memAgg1 (c : Dev nD) : ∀ b ∉ wr_memAgg1, memAgg1 m c (Proc.devRef .tc b) = m ((c : Thread nD τ).loc b) :=
  launch_step m (keep_hostOps5 m c) (launch_memZr1 m c)
abbrev wr_memH2 : List (Ref sig .tc) := wr_memAgg1 ++ [main_v205]
theorem launch_memH2 (c : Dev nD) : ∀ b ∉ wr_memH2, memH2 m c (Proc.devRef .tc b) = m ((c : Thread nD τ).loc b) :=
  launch_step m (keep5 m c) (launch_memAgg1 m c)
abbrev wr_memOneHot : List (Ref sig .tc) := wr_memH2 ++ hostOps6_W
theorem launch_memOneHot (c : Dev nD) : ∀ b ∉ wr_memOneHot, memOneHot m c (Proc.devRef .tc b) = m ((c : Thread nD τ).loc b) :=
  launch_step m (keep_hostOps6 m c) (launch_memH2 m c)
abbrev wr_memPool : List (Ref sig .tc) := wr_memOneHot ++ [main_v214]
theorem launch_memPool (c : Dev nD) : ∀ b ∉ wr_memPool, memPool m c (Proc.devRef .tc b) = m ((c : Thread nD τ).loc b) :=
  launch_step m (keep6 m c) (launch_memOneHot m c)
abbrev wr_memMean : List (Ref sig .tc) := wr_memPool ++ hostOps7_W
theorem launch_memMean (c : Dev nD) : ∀ b ∉ wr_memMean, memMean m c (Proc.devRef .tc b) = m ((c : Thread nD τ).loc b) :=
  launch_step m (keep_hostOps7 m c) (launch_memPool m c)
abbrev wr_memOut : List (Ref sig .tc) := wr_memMean ++ [main_v222]
theorem launch_memOut (c : Dev nD) : ∀ b ∉ wr_memOut, memOut m c (Proc.devRef .tc b) = m ((c : Thread nD τ).loc b) :=
  launch_step m (keep7 m c) (launch_memMean m c)

/-- The run ends without a fault with every unscoped buffer that no item writes as launched. -/
theorem unwritten_kept : θ_run defs (onTc (τ := τ) (main (F := F))) ⟨m, fun _ => 0, ρ⟩ (fun r => ∀ (c : Dev nD) (b : Ref sig .tc),
      ¬ (Proc.devRef .tc b : DevRef τ sig).isScoped → b ∉ wr_memOut →
      r.2.mem ((c.tc : Thread nD τ).loc b) = m ((c.tc : Thread nD τ).loc b)) :=
  (θ_run defs _ _).mono (fun r h c b hs hb => (h c _ (mem_uc b hs)).trans (launch_memOut m c b hb)) (run_all m ρ)

end Cert.Kernel.Hand

end
-- ==== Proof.KI.RegKit.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {nD : Nat} {τ : Topo} {sig : RefSig} {Val : EltTy → Type} {Λ₀ : Idealize.SL.Sem.Labels}
variable (cfg : Cfg sig Λ₀) (c : Dev nD)

local notation "𝕄" => MT nD τ sig Unit Val ℕ (UR sig nD τ) ℕ

/-- The proof data of a region with a constant invariant; only the entry contents and what the body leaves vary. -/
def plainDat (A : (w : Fin cfg.W) → Buf Val ((cfg.win w).arr.view.loc (c.tc : Thread nD τ)))
    (after : (w : Fin cfg.W) → Fin cfg.N → (cfg.win w).block.Idx → Val (cfg.win w).elt) :
    Dat τ Val Unit ℕ (UR sig nD τ) ℕ cfg c where
  A := A
  after := after
  Φ _ := Pipeline.ΦA cfg.spec c
  q _ := fullShare
  owed _ := 0

variable {cfg c}

/-- What is the same at every point and unread by the body frames around the body's triple. -/
theorem plainDat_obligation {defs₀ : Defs nD τ sig Val Λ₀} {𝒱₀ : Variants} {E : Set ℕ}
    {dat : Dat τ Val Unit ℕ (UR sig nD τ) ℕ cfg c}
    {A : (w : Fin cfg.W) → Buf Val ((cfg.win w).arr.view.loc (c.tc : Thread nD τ))}
    {after : (w : Fin cfg.W) → Fin cfg.N → (cfg.win w).block.Idx → Val (cfg.win w).elt}
    (hd : dat = plainDat cfg c A after) (hlive : ∀ w i, cfg.idle w i = false)
    (h : ∀ t : Fin cfg.N,
      ((bigSep Finset.univ fun w : Fin cfg.W =>
          iprop(∃ d, owns c ((cfg.win w).stage (cfg.slots t w)) fullShare (dat.before w t d))) : sProp 𝕄)
        ⊢ wp frame (wpE defs₀ 𝒱₀ c none) E (defs₀ .tc cfg.body (cfg.bodyArgs t (cfg.slots t))) fun _ =>
            bigSep Finset.univ fun w : Fin cfg.W => owns c ((cfg.win w).stage (cfg.slots t w)) fullShare (dat.after w t)) :
    BodyObligation dat defs₀ 𝒱₀ () E := fun t => by
  subst hd
  simp only [hlive]
  exact (sep_mono .rfl ((sep_mono .rfl (h t)).trans (wp_frame_l _ _ _))).trans (wp_frame_l _ _ _)

end Cert.KernelIdeal.Hand

end
-- ==== Proof.KI.Reg0.lean ====
import proofs.«420580_j29025388986926_1_alg».proof.Proof.Gen.KernelIdeal.Launch
import proofs.«420580_j29025388986926_1_alg».proof.Proof.Gen.KernelIdeal.Skeleton
import proofs.«420580_j29025388986926_1_alg».proof.Proof.Gen.KernelIdeal.Points
import proofs.«420580_j29025388986926_1_alg».proof.Proof.KI.RegKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S5000x64 := Rect.unit (s := S5000x64) ![0, 0] S5000x64.size inb_S5000x64_S5000x64_0_0
abbrev rw0 : Rect S64x128 := Rect.unit (s := S64x128) ![0, 0] S64x128.size inb_S64x128_S64x128_0_0
abbrev ro0 : Rect S5000x128 := Rect.unit (s := S5000x128) ![0, 0] S5000x128.size inb_S5000x128_S5000x128_0_0

/-- What the body leaves in the output buffer: its one store, of the product of the block and the weight. -/
def out0 (x : Vec F S5000x64 .f32) (w : Vec F S64x128 .f32) : Vec F S5000x128 .f32 :=
  View.canon [⟨ro0, k0_pay1 (View.ld x rx0) (View.ld w rw0)⟩]

set_option maxHeartbeats 1000000 in
/-- The one store covers the output buffer, so what the buffer held before does not matter. -/
theorem body0_triple (E : Set ℕ) (i : grid0.Coords)
    (ax : Memref sig .tc .vmem S5000x64 .f32) (hax : ax.IsWhole)
    (aw : Memref sig .tc .vmem S64x128 .f32) (haw : aw.IsWhole)
    (ao : Memref sig .tc .vmem S5000x128 .f32) (hao : ao.IsWhole)
    (x : Vec F S5000x64 .f32) (w : Vec F S64x128 .f32) :
    iprop(owns c ax fullShare x ∗ owns c aw fullShare w
        ∗ ∃ d, owns c ao fullShare d)
      ⊢ (wp frame (wpE (defs₀ (F := F)) Variants.none c none) E (cc0__linear_kernel i ax hax aw haw ao hao) fun _ =>
          iprop(owns c ax fullShare x ∗ owns c aw fullShare w
            ∗ owns c ao fullShare (out0 x w)) : sProp 𝕄) := by
  simp only [cc0__linear_kernel_eq_skeleton]; unfold cc0__linear_kernel_skel
  unfold owns
  iintro ⟨⟨%fx, %hfx, Hx⟩, ⟨%fw, %hfw, Hw⟩, ⟨%d, %fo, -, Ho⟩⟩
  subst hfx; subst hfw
  sl_exec
  sl_step
  isplitl [Hx]; · iexists fx; iframe Hx; ipureintro; rfl
  isplitl [Hw]; · iexists fw; iframe Hw; ipureintro; rfl
  iexists _; iframe Ho; ipureintro
  exact View.read_writes_eq_canon _ _ _ (View.cover_of_tiled _ S5000x128.size (by rfl))

def dat0 : Dat τ (Elt F) Unit ℕ (UR sig nD τ) ℕ cfg0 c :=
  plainDat cfg0 c (fun w => V c (Pipeline.arrRef spec0 w)) fun w t => match w with
    | ⟨0, _⟩ => iblk0 V c 0 t
    | ⟨1, _⟩ => iblk0 V c 1 t
    | ⟨2, _⟩ => out0 (iblk0 V c 0 t) (iblk0 V c 1 t)

theorem A_eq0 (w : Fin cfg0.W) : (dat0 V c).A w = V c (Pipeline.arrRef spec0 w) := rfl
theorem q_eq0 (w : Fin cfg0.W) : (dat0 V c).q w = fullShare := rfl
theorem owed_eq0 (t : Fin (cfg0.N + 1)) : (dat0 V c).owed t = 0 := rfl
theorem after0_2 (t : Fin cfg0.N) : (dat0 V c).after 2 t = out0 (iblk0 V c 0 t) (iblk0 V c 1 t) := by
  dsimp only [dat0, plainDat]
theorem hin0 : (Pipeline.ΦA spec0 c : sProp 𝕄) ⊢ (dat0 V c).Φ 0 := .rfl
theorem hout0 : (dat0 V c).Φ (Fin.last cfg0.N) ⊢ (Pipeline.ΦA spec0 c : sProp 𝕄) := .rfl

theorem before0_0 (t : Fin cfg0.N) (d) : (dat0 V c).before 0 t d = iblk0 V c 0 t :=
  (dat0 V c).before_in_eq_fetched 0 rfl (fun _ => rfl) (fun _ _ _ => rfl) (fun _ => rfl) t d
theorem before0_1 (t : Fin cfg0.N) (d) : (dat0 V c).before 1 t d = iblk0 V c 1 t :=
  (dat0 V c).before_in_eq_fetched 1 rfl (fun _ => rfl) (fun _ _ _ => rfl) (fun _ => rfl) t d

theorem body_obligation0 : BodyObligation (dat0 (F := F) V c) (defs₀ (F := F)) Variants.none () Set.univ :=
  plainDat_obligation rfl (fun _ _ => rfl) fun t => by
    rw [bigSep_W0, bigSep_W0]
    simp only [before0_0, before0_1]
    dsimp only [dat0, plainDat]
    show _ ⊢ wp _ _ _ (bodyAt0 t) _
    iintro ⟨⟨%d0, Hx⟩, ⟨%d1, Hw⟩, ⟨%d2, Ho⟩⟩
    iapply (body0_triple c Set.univ _ _ _ _ _ _ _ (iblk0 V c 0 t) (iblk0 V c 1 t))
    iframe Hx Hw
    iexists _; iexact Ho

end Cert.KernelIdeal.Hand
-- ==== Proof.KI.Reg1.lean ====
import proofs.«420580_j29025388986926_1_alg».proof.Proof.KI.Reg0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output buffer: its one store, of the product of the block and the weight. -/
def out1 (x : Vec F S5000x64 .f32) (w : Vec F S64x128 .f32) : Vec F S5000x128 .f32 :=
  View.canon [⟨ro0, k1_pay1 (View.ld x rx0) (View.ld w rw0)⟩]

/-- The region runs the same kernel as region 0: both bodies are the same loads and the same one store. -/
theorem kernel1_eq : cc1__linear_kernel (F := F) = cc0__linear_kernel :=
  cc1__linear_kernel_eq_skeleton.trans cc0__linear_kernel_eq_skeleton.symm
theorem out1_eq : out1 (F := F) = out0 := rfl

def dat1 : Dat τ (Elt F) Unit ℕ (UR sig nD τ) ℕ cfg1 c :=
  plainDat cfg1 c (fun w => V c (Pipeline.arrRef spec1 w)) fun w t => match w with
    | ⟨0, _⟩ => iblk1 V c 0 t
    | ⟨1, _⟩ => iblk1 V c 1 t
    | ⟨2, _⟩ => out1 (iblk1 V c 0 t) (iblk1 V c 1 t)

theorem A_eq1 (w : Fin cfg1.W) : (dat1 V c).A w = V c (Pipeline.arrRef spec1 w) := rfl
theorem q_eq1 (w : Fin cfg1.W) : (dat1 V c).q w = fullShare := rfl
theorem owed_eq1 (t : Fin (cfg1.N + 1)) : (dat1 V c).owed t = 0 := rfl
theorem after1_2 (t : Fin cfg1.N) : (dat1 V c).after 2 t = out1 (iblk1 V c 0 t) (iblk1 V c 1 t) := by
  dsimp only [dat1, plainDat]
theorem hin1 : (Pipeline.ΦA spec1 c : sProp 𝕄) ⊢ (dat1 V c).Φ 0 := .rfl
theorem hout1 : (dat1 V c).Φ (Fin.last cfg1.N) ⊢ (Pipeline.ΦA spec1 c : sProp 𝕄) := .rfl

theorem before1_0 (t : Fin cfg1.N) (d) : (dat1 V c).before 0 t d = iblk1 V c 0 t :=
  (dat1 V c).before_in_eq_fetched 0 rfl (fun _ => rfl) (fun _ _ _ => rfl) (fun _ => rfl) t d
theorem before1_1 (t : Fin cfg1.N) (d) : (dat1 V c).before 1 t d = iblk1 V c 1 t :=
  (dat1 V c).before_in_eq_fetched 1 rfl (fun _ => rfl) (fun _ _ _ => rfl) (fun _ => rfl) t d

theorem body_obligation1 : BodyObligation (dat1 (F := F) V c) (defs₀ (F := F)) Variants.none () Set.univ :=
  plainDat_obligation rfl (fun _ _ => rfl) fun t => by
    rw [bigSep_W1, bigSep_W1]
    simp only [before1_0, before1_1]
    dsimp only [dat1, plainDat]
    show _ ⊢ wp _ _ _ (bodyAt1 t) _
    rw [bodyAt1, kernel1_eq, out1_eq]
    iintro ⟨⟨%d0, Hx⟩, ⟨%d1, Hw⟩, ⟨%d2, Ho⟩⟩
    iapply (body0_triple c Set.univ _ _ _ _ _ _ _ (iblk1 V c 0 t) (iblk1 V c 1 t))
    iframe Hx Hw
    iexists _; iexact Ho

end Cert.KernelIdeal.Hand
-- ==== Proof.KI.Reg2.lean ====
import proofs.«420580_j29025388986926_1_alg».proof.Proof.Gen.KernelIdeal.Launch
import proofs.«420580_j29025388986926_1_alg».proof.Proof.Gen.KernelIdeal.Skeleton
import proofs.«420580_j29025388986926_1_alg».proof.Proof.Gen.KernelIdeal.Points
import proofs.«420580_j29025388986926_1_alg».proof.Proof.KI.RegKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rBlk2 : Rect S5000x128 := Rect.unit (s := S5000x128) ![0, 0] S5000x128.size inb_S5000x128_S5000x128_0_0
abbrev rRow2 : Rect S1x128 := Rect.unit (s := S1x128) ![0, 0] S1x128.size inb_S1x128_S1x128_0_0

/-- What the body leaves in the output buffer: the two blocks plus the two rows repeated down the block, clamped below at zero. -/
def out2 (x0 : Vec F S5000x128 .f32) (b1 : Vec F S1x128 .f32) (x2 : Vec F S5000x128 .f32) (b3 : Vec F S1x128 .f32) : Vec F S5000x128 .f32 :=
  View.canon [⟨rBlk2, k2_pay1 (View.ld b1 rRow2) (View.ld b3 rRow2) (View.ld x0 rBlk2) (View.ld x2 rBlk2)⟩]

set_option maxHeartbeats 1000000 in
/-- The one store covers the output buffer, so what the buffer held before does not matter. -/
theorem sound_kernel2 (E : Set ℕ) (i : grid2.Coords)
    (a0 : Memref sig .tc .vmem S5000x128 .f32) (h0 : a0.IsWhole) (a1 : Memref sig .tc .vmem S1x128 .f32) (h1 : a1.IsWhole)
    (a2 : Memref sig .tc .vmem S5000x128 .f32) (h2 : a2.IsWhole) (a3 : Memref sig .tc .vmem S1x128 .f32) (h3 : a3.IsWhole)
    (a4 : Memref sig .tc .vmem S5000x128 .f32) (h4 : a4.IsWhole)
    (x0 : Vec F S5000x128 .f32) (b1 : Vec F S1x128 .f32) (x2 : Vec F S5000x128 .f32) (b3 : Vec F S1x128 .f32) :
    iprop(owns c a0 fullShare x0 ∗ owns c a1 fullShare b1
        ∗ owns c a2 fullShare x2 ∗ owns c a3 fullShare b3
        ∗ ∃ d, owns c a4 fullShare d)
      ⊢ (wp frame (wpE (defs₀ (F := F)) Variants.none c none) E (cc2__combine_kernel i a0 h0 a1 h1 a2 h2 a3 h3 a4 h4) fun _ =>
          iprop(owns c a0 fullShare x0 ∗ owns c a1 fullShare b1
            ∗ owns c a2 fullShare x2 ∗ owns c a3 fullShare b3
            ∗ owns c a4 fullShare (out2 x0 b1 x2 b3)) : sProp 𝕄) := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩⟩
  subst hf0; subst hf1; subst hf2; subst hf3
  sl_exec
  sl_step
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S5000x128.size (by rfl))

def dat2 : Dat τ (Elt F) Unit ℕ (UR sig nD τ) ℕ cfg2 c :=
  plainDat cfg2 c (fun w => V c (Pipeline.arrRef spec2 w)) fun w t => match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)

theorem A_eq2 (w : Fin cfg2.W) : (dat2 V c).A w = V c (Pipeline.arrRef spec2 w) := rfl
theorem q_eq2 (w : Fin cfg2.W) : (dat2 V c).q w = fullShare := rfl
theorem owed_eq2 (t : Fin (cfg2.N + 1)) : (dat2 V c).owed t = 0 := rfl
theorem after2_4 (t : Fin cfg2.N) :
    (dat2 V c).after 4 t = out2 (iblk2 V c 0 t) (iblk2 V c 1 t) (iblk2 V c 2 t) (iblk2 V c 3 t) := by
  dsimp only [dat2, plainDat]
theorem hin2 : (Pipeline.ΦA spec2 c : sProp 𝕄) ⊢ (dat2 V c).Φ 0 := .rfl
theorem hout2 : (dat2 V c).Φ (Fin.last cfg2.N) ⊢ (Pipeline.ΦA spec2 c : sProp 𝕄) := .rfl

theorem before2_0 (t : Fin cfg2.N) (d) : (dat2 V c).before 0 t d = iblk2 V c 0 t :=
  (dat2 V c).before_in_eq_fetched 0 rfl (fun _ => rfl) (fun _ _ _ => rfl) (fun _ => rfl) t d
theorem before2_1 (t : Fin cfg2.N) (d) : (dat2 V c).before 1 t d = iblk2 V c 1 t :=
  (dat2 V c).before_in_eq_fetched 1 rfl (fun _ => rfl) (fun _ _ _ => rfl) (fun _ => rfl) t d
theorem before2_2 (t : Fin cfg2.N) (d) : (dat2 V c).before 2 t d = iblk2 V c 2 t :=
  (dat2 V c).before_in_eq_fetched 2 rfl (fun _ => rfl) (fun _ _ _ => rfl) (fun _ => rfl) t d
theorem before2_3 (t : Fin cfg2.N) (d) : (dat2 V c).before 3 t d = iblk2 V c 3 t :=
  (dat2 V c).before_in_eq_fetched 3 rfl (fun _ => rfl) (fun _ _ _ => rfl) (fun _ => rfl) t d

theorem body_obligation2 : BodyObligation (dat2 (F := F) V c) (defs₀ (F := F)) Variants.none () Set.univ :=
  plainDat_obligation rfl (fun _ _ => rfl) fun t => by
    rw [bigSep_W2, bigSep_W2]
    simp only [before2_0, before2_1, before2_2, before2_3]
    dsimp only [dat2, plainDat]
    show _ ⊢ wp _ _ _ (bodyAt2 t) _
    iintro ⟨⟨%d0, H0⟩, ⟨%d1, H1⟩, ⟨%d2, H2⟩, ⟨%d3, H3⟩, ⟨%d4, H4⟩⟩
    iapply (sound_kernel2 c Set.univ _ _ _ _ _ _ _ _ _ _ _ (iblk2 V c 0 t) (iblk2 V c 1 t) (iblk2 V c 2 t) (iblk2 V c 3 t))
    iframe H0 H1 H2 H3
    iexists _; iexact H4

end Cert.KernelIdeal.Hand
-- ==== Proof.KI.Reg3.lean ====
import proofs.«420580_j29025388986926_1_alg».proof.Proof.Gen.KernelIdeal.Launch
import proofs.«420580_j29025388986926_1_alg».proof.Proof.Gen.KernelIdeal.Skeleton
import proofs.«420580_j29025388986926_1_alg».proof.Proof.Gen.KernelIdeal.Points
import proofs.«420580_j29025388986926_1_alg».proof.Proof.KI.RegKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rx3 : Rect S5000x128 := Rect.unit (s := S5000x128) ![0, 0] S5000x128.size inb_S5000x128_S5000x128_0_0
abbrev rw3 : Rect S128x128 := Rect.unit (s := S128x128) ![0, 0] S128x128.size inb_S128x128_S128x128_0_0
abbrev ro3 : Rect S5000x128 := Rect.unit (s := S5000x128) ![0, 0] S5000x128.size inb_S5000x128_S5000x128_0_0

/-- What the body leaves in the output buffer: its one store, of the product of the block and the weight. -/
def out3 (x : Vec F S5000x128 .f32) (w : Vec F S128x128 .f32) : Vec F S5000x128 .f32 :=
  View.canon [⟨ro3, k3_pay1 (View.ld x rx3) (View.ld w rw3)⟩]

set_option maxHeartbeats 1000000 in
/-- The one store covers the output buffer, so what the buffer held before does not matter. -/
theorem body3_triple (E : Set ℕ) (i : grid3.Coords)
    (ax : Memref sig .tc .vmem S5000x128 .f32) (hax : ax.IsWhole)
    (aw : Memref sig .tc .vmem S128x128 .f32) (haw : aw.IsWhole)
    (ao : Memref sig .tc .vmem S5000x128 .f32) (hao : ao.IsWhole)
    (x : Vec F S5000x128 .f32) (w : Vec F S128x128 .f32) :
    iprop(owns c ax fullShare x ∗ owns c aw fullShare w
        ∗ ∃ d, owns c ao fullShare d)
      ⊢ (wp frame (wpE (defs₀ (F := F)) Variants.none c none) E (cc3__linear_kernel i ax hax aw haw ao hao) fun _ =>
          iprop(owns c ax fullShare x ∗ owns c aw fullShare w
            ∗ owns c ao fullShare (out3 x w)) : sProp 𝕄) := by
  simp only [cc3__linear_kernel_eq_skeleton]; unfold cc3__linear_kernel_skel
  unfold owns
  iintro ⟨⟨%fx, %hfx, Hx⟩, ⟨%fw, %hfw, Hw⟩, ⟨%d, %fo, -, Ho⟩⟩
  subst hfx; subst hfw
  sl_exec
  sl_step
  isplitl [Hx]; · iexists fx; iframe Hx; ipureintro; rfl
  isplitl [Hw]; · iexists fw; iframe Hw; ipureintro; rfl
  iexists _; iframe Ho; ipureintro
  exact View.read_writes_eq_canon _ _ _ (View.cover_of_tiled _ S5000x128.size (by rfl))

def dat3 : Dat τ (Elt F) Unit ℕ (UR sig nD τ) ℕ cfg3 c :=
  plainDat cfg3 c (fun w => V c (Pipeline.arrRef spec3 w)) fun w t => match w with
    | ⟨0, _⟩ => iblk3 V c 0 t
    | ⟨1, _⟩ => iblk3 V c 1 t
    | ⟨2, _⟩ => out3 (iblk3 V c 0 t) (iblk3 V c 1 t)

theorem A_eq3 (w : Fin cfg3.W) : (dat3 V c).A w = V c (Pipeline.arrRef spec3 w) := rfl
theorem q_eq3 (w : Fin cfg3.W) : (dat3 V c).q w = fullShare := rfl
theorem owed_eq3 (t : Fin (cfg3.N + 1)) : (dat3 V c).owed t = 0 := rfl
theorem after3_2 (t : Fin cfg3.N) : (dat3 V c).after 2 t = out3 (iblk3 V c 0 t) (iblk3 V c 1 t) := by
  dsimp only [dat3, plainDat]
theorem hin3 : (Pipeline.ΦA spec3 c : sProp 𝕄) ⊢ (dat3 V c).Φ 0 := .rfl
theorem hout3 : (dat3 V c).Φ (Fin.last cfg3.N) ⊢ (Pipeline.ΦA spec3 c : sProp 𝕄) := .rfl

theorem before3_0 (t : Fin cfg3.N) (d) : (dat3 V c).before 0 t d = iblk3 V c 0 t :=
  (dat3 V c).before_in_eq_fetched 0 rfl (fun _ => rfl) (fun _ _ _ => rfl) (fun _ => rfl) t d
theorem before3_1 (t : Fin cfg3.N) (d) : (dat3 V c).before 1 t d = iblk3 V c 1 t :=
  (dat3 V c).before_in_eq_fetched 1 rfl (fun _ => rfl) (fun _ _ _ => rfl) (fun _ => rfl) t d

theorem body_obligation3 : BodyObligation (dat3 (F := F) V c) (defs₀ (F := F)) Variants.none () Set.univ :=
  plainDat_obligation rfl (fun _ _ => rfl) fun t => by
    rw [bigSep_W3, bigSep_W3]
    simp only [before3_0, before3_1]
    dsimp only [dat3, plainDat]
    show _ ⊢ wp _ _ _ (bodyAt3 t) _
    iintro ⟨⟨%d0, Hx⟩, ⟨%d1, Hw⟩, ⟨%d2, Ho⟩⟩
    iapply (body3_triple c Set.univ _ _ _ _ _ _ _ (iblk3 V c 0 t) (iblk3 V c 1 t))
    iframe Hx Hw
    iexists _; iexact Ho

end Cert.KernelIdeal.Hand
-- ==== Proof.KI.Reg4.lean ====
import proofs.«420580_j29025388986926_1_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body leaves in the output buffer: its one store, of the product of the block and the weight. -/
def out4 (x : Vec F S5000x128 .f32) (w : Vec F S128x128 .f32) : Vec F S5000x128 .f32 :=
  View.canon [⟨ro3, k4_pay1 (View.ld x rx3) (View.ld w rw3)⟩]

/-- The region runs the same kernel as region 3: both bodies are the same loads and the same one store. -/
theorem kernel4_eq : cc4__linear_kernel (F := F) = cc3__linear_kernel :=
  cc4__linear_kernel_eq_skeleton.trans cc3__linear_kernel_eq_skeleton.symm
theorem out4_eq : out4 (F := F) = out3 := rfl

def dat4 : Dat τ (Elt F) Unit ℕ (UR sig nD τ) ℕ cfg4 c :=
  plainDat cfg4 c (fun w => V c (Pipeline.arrRef spec4 w)) fun w t => match w with
    | ⟨0, _⟩ => iblk4 V c 0 t
    | ⟨1, _⟩ => iblk4 V c 1 t
    | ⟨2, _⟩ => out4 (iblk4 V c 0 t) (iblk4 V c 1 t)

theorem A_eq4 (w : Fin cfg4.W) : (dat4 V c).A w = V c (Pipeline.arrRef spec4 w) := rfl
theorem q_eq4 (w : Fin cfg4.W) : (dat4 V c).q w = fullShare := rfl
theorem owed_eq4 (t : Fin (cfg4.N + 1)) : (dat4 V c).owed t = 0 := rfl
theorem after4_2 (t : Fin cfg4.N) : (dat4 V c).after 2 t = out4 (iblk4 V c 0 t) (iblk4 V c 1 t) := by
  dsimp only [dat4, plainDat]
theorem hin4 : (Pipeline.ΦA spec4 c : sProp 𝕄) ⊢ (dat4 V c).Φ 0 := .rfl
theorem hout4 : (dat4 V c).Φ (Fin.last cfg4.N) ⊢ (Pipeline.ΦA spec4 c : sProp 𝕄) := .rfl

theorem before4_0 (t : Fin cfg4.N) (d) : (dat4 V c).before 0 t d = iblk4 V c 0 t :=
  (dat4 V c).before_in_eq_fetched 0 rfl (fun _ => rfl) (fun _ _ _ => rfl) (fun _ => rfl) t d
theorem before4_1 (t : Fin cfg4.N) (d) : (dat4 V c).before 1 t d = iblk4 V c 1 t :=
  (dat4 V c).before_in_eq_fetched 1 rfl (fun _ => rfl) (fun _ _ _ => rfl) (fun _ => rfl) t d

theorem body_obligation4 : BodyObligation (dat4 (F := F) V c) (defs₀ (F := F)) Variants.none () Set.univ :=
  plainDat_obligation rfl (fun _ _ => rfl) fun t => by
    rw [bigSep_W4, bigSep_W4]
    simp only [before4_0, before4_1]
    dsimp only [dat4, plainDat]
    show _ ⊢ wp _ _ _ (bodyAt4 t) _
    rw [bodyAt4, kernel4_eq, out4_eq]
    iintro ⟨⟨%d0, Hx⟩, ⟨%d1, Hw⟩, ⟨%d2, Ho⟩⟩
    iapply (body3_triple c Set.univ _ _ _ _ _ _ _ (iblk4 V c 0 t) (iblk4 V c 1 t))
    iframe Hx Hw
    iexists _; iexact Ho

end Cert.KernelIdeal.Hand
-- ==== Proof.KI.Reg5.lean ====
import proofs.«420580_j29025388986926_1_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body leaves in the output buffer: the two blocks plus the two rows repeated down the block, clamped below at zero. -/
def out5 (x0 : Vec F S5000x128 .f32) (b1 : Vec F S1x128 .f32) (x2 : Vec F S5000x128 .f32) (b3 : Vec F S1x128 .f32) : Vec F S5000x128 .f32 :=
  View.canon [⟨rBlk2, k5_pay1 (View.ld b1 rRow2) (View.ld b3 rRow2) (View.ld x0 rBlk2) (View.ld x2 rBlk2)⟩]

/-- The region runs the same kernel as region 2: both bodies are the same loads and the same one store. -/
theorem kernel5_eq : cc5__combine_kernel (F := F) = cc2__combine_kernel :=
  cc5__combine_kernel_eq_skeleton.trans cc2__combine_kernel_eq_skeleton.symm
theorem out5_eq : out5 (F := F) = out2 := rfl

def dat5 : Dat τ (Elt F) Unit ℕ (UR sig nD τ) ℕ cfg5 c :=
  plainDat cfg5 c (fun w => V c (Pipeline.arrRef spec5 w)) fun w t => match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 (iblk5 V c 0 t) (iblk5 V c 1 t) (iblk5 V c 2 t) (iblk5 V c 3 t)

theorem A_eq5 (w : Fin cfg5.W) : (dat5 V c).A w = V c (Pipeline.arrRef spec5 w) := rfl
theorem q_eq5 (w : Fin cfg5.W) : (dat5 V c).q w = fullShare := rfl
theorem owed_eq5 (t : Fin (cfg5.N + 1)) : (dat5 V c).owed t = 0 := rfl
theorem after5_4 (t : Fin cfg5.N) :
    (dat5 V c).after 4 t = out5 (iblk5 V c 0 t) (iblk5 V c 1 t) (iblk5 V c 2 t) (iblk5 V c 3 t) := by
  dsimp only [dat5, plainDat]
theorem hin5 : (Pipeline.ΦA spec5 c : sProp 𝕄) ⊢ (dat5 V c).Φ 0 := .rfl
theorem hout5 : (dat5 V c).Φ (Fin.last cfg5.N) ⊢ (Pipeline.ΦA spec5 c : sProp 𝕄) := .rfl

theorem before5_0 (t : Fin cfg5.N) (d) : (dat5 V c).before 0 t d = iblk5 V c 0 t :=
  (dat5 V c).before_in_eq_fetched 0 rfl (fun _ => rfl) (fun _ _ _ => rfl) (fun _ => rfl) t d
theorem before5_1 (t : Fin cfg5.N) (d) : (dat5 V c).before 1 t d = iblk5 V c 1 t :=
  (dat5 V c).before_in_eq_fetched 1 rfl (fun _ => rfl) (fun _ _ _ => rfl) (fun _ => rfl) t d
theorem before5_2 (t : Fin cfg5.N) (d) : (dat5 V c).before 2 t d = iblk5 V c 2 t :=
  (dat5 V c).before_in_eq_fetched 2 rfl (fun _ => rfl) (fun _ _ _ => rfl) (fun _ => rfl) t d
theorem before5_3 (t : Fin cfg5.N) (d) : (dat5 V c).before 3 t d = iblk5 V c 3 t :=
  (dat5 V c).before_in_eq_fetched 3 rfl (fun _ => rfl) (fun _ _ _ => rfl) (fun _ => rfl) t d

theorem body_obligation5 : BodyObligation (dat5 (F := F) V c) (defs₀ (F := F)) Variants.none () Set.univ :=
  plainDat_obligation rfl (fun _ _ => rfl) fun t => by
    rw [bigSep_W5, bigSep_W5]
    simp only [before5_0, before5_1, before5_2, before5_3]
    dsimp only [dat5, plainDat]
    show _ ⊢ wp _ _ _ (bodyAt5 t) _
    rw [bodyAt5, kernel5_eq, out5_eq]
    iintro ⟨⟨%d0, H0⟩, ⟨%d1, H1⟩, ⟨%d2, H2⟩, ⟨%d3, H3⟩, ⟨%d4, H4⟩⟩
    iapply (sound_kernel2 c Set.univ _ _ _ _ _ _ _ _ _ _ _ (iblk5 V c 0 t) (iblk5 V c 1 t) (iblk5 V c 2 t) (iblk5 V c 3 t))
    iframe H0 H1 H2 H3
    iexists _; iexact H4

end Cert.KernelIdeal.Hand
-- ==== Proof.KI.Reg6.lean ====
import proofs.«420580_j29025388986926_1_alg».proof.Proof.Gen.KernelIdeal.Launch
import proofs.«420580_j29025388986926_1_alg».proof.Proof.Gen.KernelIdeal.Skeleton
import proofs.«420580_j29025388986926_1_alg».proof.Proof.Gen.KernelIdeal.Points
import proofs.«420580_j29025388986926_1_alg».proof.Proof.KI.RegKit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def zero6 : Vec F S64x128 .f32 := k6_pay1 (F := F)

def step6 (s : Vec F S64x128 .f32) (x0 : Vec F S5000x64 .f32) (x1 : Vec F S5000x128 .f32) : Vec F S64x128 .f32 :=
  k6_pay2 x0 x1 s

def acc6 (c : Dev nD) : (n : ℕ) → n < cfg6.N → Vec F S64x128 .f32
  | 0, hn => step6 (zero6 (F := F)) (iblk6 V c 0 ⟨0, hn⟩) (iblk6 V c 1 ⟨0, hn⟩)
  | n + 1, hn => step6 (acc6 c n (Nat.lt_of_succ_lt hn)) (iblk6 V c 0 ⟨n + 1, hn⟩) (iblk6 V c 1 ⟨n + 1, hn⟩)

theorem acc6_zero (c : Dev nD) (hn : 0 < cfg6.N) :
    acc6 V c 0 hn = step6 (zero6 (F := F)) (iblk6 V c 0 ⟨0, hn⟩) (iblk6 V c 1 ⟨0, hn⟩) := rfl

theorem acc6_succ (c : Dev nD) (n : ℕ) (hn : n + 1 < cfg6.N) :
    acc6 V c (n + 1) hn = step6 (acc6 V c n (Nat.lt_of_succ_lt hn)) (iblk6 V c 0 ⟨n + 1, hn⟩) (iblk6 V c 1 ⟨n + 1, hn⟩) := rfl

abbrev cond6_1 (i : grid6.Coords) : Prop :=
  (Scalar.cmpi .ne (Scalar.extui (Scalar.cmpi .eq (BitVec.ofNat 32 (i 0).val) 0#32)) 0#32) = 1#1

theorem hcond6_1 : ∀ t : Fin cfg6.N, cond6_1 (grid6.coords t) ↔ t.val = 0 :=
  (by decide +kernel : ∀ t : Fin grid6.N, cond6_1 (grid6.coords t) ↔ t.val = 0)

theorem hcond6_2 : ∀ t : Fin cfg6.N, k6_cond2 (grid6.coords t) = 1#1 ↔ t.val = 9 :=
  (by decide +kernel : ∀ t : Fin grid6.N, k6_cond2 (grid6.coords t) = 1#1 ↔ t.val = 9)

theorem live6_0 : ∀ t : Fin cfg6.N, cfg6.idle 0 (grid6.coords t) = false := fun _ => rfl
theorem live6_1 : ∀ t : Fin cfg6.N, cfg6.idle 1 (grid6.coords t) = false := fun _ => rfl

theorem idle6_2 : ∀ t : Fin cfg6.N, t.val ≠ 9 → cfg6.idle 2 (grid6.coords t) = true :=
  (by decide +kernel : ∀ t : Fin grid6.N, t.val ≠ 9 → cfg6.idle 2 (grid6.coords t) = true)

theorem noFlush6_2 : ∀ t : Fin cfg6.N, t.val ≠ 9 → (cfg6.win 2).flush t = false :=
  (by decide +kernel : ∀ t : Fin grid6.N, t.val ≠ 9 → win6_2.flush t = false)

theorem live6_2 : ∀ t : Fin cfg6.N, t.val = 9 → cfg6.idle 2 (grid6.coords t) = false :=
  (by decide +kernel : ∀ t : Fin grid6.N, t.val = 9 → cfg6.idle 2 (grid6.coords t) = false)

theorem off6 : (![0, 0] : Fin 2 → ℕ) = fun _ => 0 := funext fun a => by fin_cases a <;> rfl

theorem cover6 (p : Vec F S64x128 .f32) (L : List (View.Piece (Elt F) S64x128 .f32)) (y : S64x128.Idx) :
    ∃ pc ∈ ((⟨Rect.unit ![0, 0] S64x128.size inb_S64x128_S64x128_0_0, p⟩ : View.Piece (Elt F) S64x128 .f32) :: L), y ∈ pc.1.set :=
  ⟨_, List.mem_cons_self, View.mem_set_unit_zero off6 inb_S64x128_S64x128_0_0 y⟩

section

variable (c : Dev nD) (E : Set ℕ) (i : grid6.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (x0 : Vec F S5000x64 .f32) (x1 : Vec F S5000x128 .f32)

set_option maxHeartbeats 1000000 in
theorem kernel6_mid (hc1 : ¬ cond6_1 i) (hc2 : ¬ k6_cond2 i = 1#1) (s : Vec F S64x128 .f32) (K : PUnit → sProp 𝕄) :
    iprop(owns c arg1 fullShare x0 ∗ owns c arg2 fullShare x1 ∗ owns c arg4 fullShare s
        ∗ (iprop(owns c arg1 fullShare x0 ∗ owns c arg2 fullShare x1
            ∗ owns c arg4 fullShare (step6 s x0 x1)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%fs, %hfs, HS⟩, Hk⟩
  subst hf0; subst hf1; subst hfs
  sl_exec (disch := first | exact hc1 | exact hc2)
  sl_step
  iapply Hk
  isplitl [H0]; · iexists f0; iframe H0; ipureintro; rfl
  isplitl [H1]; · iexists f1; iframe H1; ipureintro; rfl
  iexists _; iframe HS; ipureintro
  rw [View.read_writes_eq_canon _ _ _ (cover6 _ _), View.canon_unit_zero off6]
  unfold step6
  simp only [View.readAt_eq_ld, View.ld_unit_zero (S := S5000x64) off6, View.ld_unit_zero (S := S5000x128) off6, View.ld_unit_zero (S := S64x128) off6]

set_option maxHeartbeats 1000000 in
theorem kernel6_first (hc1 : cond6_1 i) (hc2 : ¬ k6_cond2 i = 1#1) (K : PUnit → sProp 𝕄) :
    iprop(owns c arg1 fullShare x0 ∗ owns c arg2 fullShare x1 ∗ (∃ d, owns c arg4 fullShare d)
        ∗ (iprop(owns c arg1 fullShare x0 ∗ owns c arg2 fullShare x1
            ∗ owns c arg4 fullShare (step6 (zero6 (F := F)) x0 x1)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%ds, %fs, -, HS⟩, Hk⟩
  subst hf0; subst hf1
  sl_exec (disch := first | exact hc1 | exact hc2)
  sl_step
  iapply Hk
  isplitl [H0]; · iexists f0; iframe H0; ipureintro; rfl
  isplitl [H1]; · iexists f1; iframe H1; ipureintro; rfl
  iexists _; iframe HS; ipureintro
  rw [View.read_writes_eq_canon _ _ _ (cover6 _ _), View.canon_cons_unit_zero off6]
  sl_unfold_run_names
  unfold step6 zero6
  simp only [View.readAt_eq_ld, View.readCov_unit_zero (S := S64x128) _ off6, View.ld_unit_zero (S := S5000x64) off6, View.ld_unit_zero (S := S5000x128) off6, View.ld_unit_zero (S := S64x128) off6]

set_option maxHeartbeats 1000000 in
theorem kernel6_last (hc1 : ¬ cond6_1 i) (hc2 : k6_cond2 i = 1#1) (s : Vec F S64x128 .f32) (K : PUnit → sProp 𝕄) :
    iprop(owns c arg1 fullShare x0 ∗ owns c arg2 fullShare x1 ∗ (∃ d, owns c arg3 fullShare d)
        ∗ owns c arg4 fullShare s
        ∗ (iprop(owns c arg1 fullShare x0 ∗ owns c arg2 fullShare x1
            ∗ owns c arg3 fullShare (step6 s x0 x1) ∗ owns c arg4 fullShare (step6 s x0 x1)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc1 | exact hc2)
  sl_step
  iapply Hk
  isplitl [H0]; · iexists f0; iframe H0; ipureintro; rfl
  isplitl [H1]; · iexists f1; iframe H1; ipureintro; rfl
  isplitl [H3]
  · iexists _; iframe H3; ipureintro
    rw [View.read_writes_eq_canon _ _ _ (cover6 _ _), View.canon_unit_zero off6]
    sl_unfold_run_names
    rw [View.readCov_unit_zero (S := S64x128) _ off6]
    unfold step6
    simp only [View.readAt_eq_ld, View.ld_unit_zero (S := S5000x64) off6, View.ld_unit_zero (S := S5000x128) off6, View.ld_unit_zero (S := S64x128) off6]
  iexists _; iframe HS; ipureintro
  sl_unfold_run_names
  rw [View.read_writes_eq_canon _ _ _ (cover6 _ _), View.canon_unit_zero off6]
  unfold step6
  simp only [View.readAt_eq_ld, View.ld_unit_zero (S := S5000x64) off6, View.ld_unit_zero (S := S5000x128) off6, View.ld_unit_zero (S := S64x128) off6]

end

abbrev scr6 : Memref sig .tc .vmem S64x128 .f32 := Memref.whole cc6_scratch0

/-- The core's scoped buffers other than the accumulator's, at some contents each. -/
abbrev rest6 (c : Dev nD) : sProp 𝕄 := Pipeline.scopedRestBut (Ix := Unit) (Name := ℕ) (U := UR sig nD τ) (Lvl := ℕ) (Val := Elt F) spec6 c [cc6_scratch0]

def Phi6 (c : Dev nD) : (n : ℕ) → n ≤ cfg6.N → sProp 𝕄
  | 0, _ => Pipeline.ΦA spec6 c
  | n + 1, hn => iprop(owns c scr6 fullShare (acc6 V c n hn) ∗ rest6 c ∗ (∃ r, prngReg c r))

theorem Phi6_succ (c : Dev nD) (n : ℕ) (hn : n < cfg6.N) :
    Phi6 V c (n + 1) hn = iprop(owns c scr6 fullShare (acc6 V c n hn) ∗ rest6 c ∗ (∃ r, prngReg c r)) := rfl

theorem Phi6_zero (c : Dev nD) (n : ℕ) (h : n ≤ cfg6.N) (hz : n = 0) : Phi6 V c n h = Pipeline.ΦA spec6 c := by
  subst hz; rfl

theorem Phi6_pos (c : Dev nD) (n : ℕ) (h : n ≤ cfg6.N) (hz : n ≠ 0) :
    Phi6 V c n h = iprop(owns c scr6 fullShare (acc6 V c (n - 1) (by omega)) ∗ rest6 c ∗ (∃ r, prngReg c r)) := by
  cases n with
  | zero => exact absurd rfl hz
  | succ n => rfl

theorem PhiA6_eq (c : Dev nD) :
    (Pipeline.ΦA spec6 c : sProp 𝕄)
      = iprop(iprop(iprop(∃ d, owns c scr6 fullShare d) ∗ rest6 c) ∗ (∃ r, prngReg c r)) := by
  unfold Pipeline.ΦA; rw [scopedRest6_split]; simp only [scr6, owns_whole]; try rfl

theorem acc6_first (c : Dev nD) (t : Fin cfg6.N) (h0 : t.val = 0) :
    acc6 V c t.val t.isLt = step6 (zero6 (F := F)) (iblk6 V c 0 t) (iblk6 V c 1 t) := by
  obtain ⟨n, hn⟩ := t
  cases n with
  | zero => rfl
  | succ n => exact absurd h0 (Nat.succ_ne_zero n)

theorem acc6_later (c : Dev nD) (t : Fin cfg6.N) (h0 : t.val ≠ 0) :
    acc6 V c t.val t.isLt = step6 (acc6 V c (t.val - 1) (Nat.lt_of_le_of_lt (Nat.sub_le _ _) t.isLt)) (iblk6 V c 0 t) (iblk6 V c 1 t) := by
  obtain ⟨n, hn⟩ := t
  cases n with
  | zero => exact absurd rfl h0
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := rfl

theorem q_eq6 (c : Dev nD) (w : Fin cfg6.W) : (dat6 V c).q w = fullShare := rfl

theorem owed_eq6 (c : Dev nD) (t : Fin (cfg6.N + 1)) : (dat6 V c).owed t = 0 := rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d

theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

set_option maxHeartbeats 4000000 in
theorem sound_body6 (c : Dev nD) (t : Fin cfg6.N) :
    iprop((dat6 V c).Φ t.castSucc ∗ (dat6 V c).owesAt () t.castSucc
    ∗ (∃ d, owns c (st6_0 t) fullShare ((dat6 V c).before 0 t d))
    ∗ (∃ d, owns c (st6_1 t) fullShare ((dat6 V c).before 1 t d))
    ∗ (∃ d, owns c (st6_2 t) fullShare ((dat6 V c).before 2 t d)))
      ⊢ wp frame (wpE (defs₀ (F := F)) Variants.none c none) Set.univ (bodyAt6 t) fun _ =>
    iprop((dat6 V c).Φ t.succ ∗ (dat6 V c).owesAt () t.succ
    ∗ (dat6 V c).leavesExact 0 t
    ∗ (dat6 V c).leavesExact 1 t
    ∗ (dat6 V c).leavesExact 2 t) := by
  unfold bodyAt6
  simp only [before6_0, before6_1]
  rw [show (dat6 V c).owesAt () t.succ = (dat6 V c).owesAt () t.castSucc from rfl]
  rw [show (dat6 V c).Φ t.succ = Phi6 V c (t.val + 1) t.isLt from rfl, Phi6_succ, Phi6_castSucc]
  rw [show (dat6 V c).leavesExact 0 t = owns c (st6_0 t) fullShare ((dat6 V c).after 0 t) from by
        unfold Dat.leavesExact; rw [live6_0 t], after6_0,
    show (dat6 V c).leavesExact 1 t = owns c (st6_1 t) fullShare ((dat6 V c).after 1 t) from by
        unfold Dat.leavesExact; rw [live6_1 t], after6_1]
  by_cases h0 : t.val = 0
  · have h9 : t.val ≠ 9 := by omega
    rw [Dat.leavesExact_idle (dat6 V c) 2 t (idle6_2 t h9) (noFlush6_2 t h9)]
    rw [Phi6_zero V c _ _ h0, PhiA6_eq, acc6_first V c t h0]
    iintro ⟨⟨⟨HS, HR⟩, Hg⟩, Ho, ⟨%d0, H0⟩, ⟨%d1, H1⟩, H2⟩
    iapply (kernel6_first c Set.univ (grid6.coords t) _ _ _ _ _ _ _ _ (iblk6 V c 0 t) (iblk6 V c 1 t)
      ((hcond6_1 t).mpr h0) (fun h => h9 ((hcond6_2 t).mp h)) _)
    iframe H0 H1 HS
    iintro ⟨H0, H1, HS⟩
    iframe
  · by_cases h9 : t.val = 9
    · rw [show (dat6 V c).leavesExact 2 t = owns c (st6_2 t) fullShare ((dat6 V c).after 2 t) from by
            unfold Dat.leavesExact; rw [live6_2 t h9], after6_2]
      rw [Phi6_pos V c _ _ h0, acc6_later V c t h0]
      iintro ⟨⟨HS, HR, Hg⟩, Ho, ⟨%d0, H0⟩, ⟨%d1, H1⟩, ⟨%d2, H2⟩⟩
      iapply (kernel6_last c Set.univ (grid6.coords t) _ _ _ _ _ _ _ _ (iblk6 V c 0 t) (iblk6 V c 1 t)
        (fun h => h0 ((hcond6_1 t).mp h)) ((hcond6_2 t).mpr h9) _ _)
      iframe H0 H1 HS
      isplitl [H2]; · iexists _; iexact H2
      iintro ⟨H0, H1, H2, HS⟩
      iframe
    · rw [Dat.leavesExact_idle (dat6 V c) 2 t (idle6_2 t h9) (noFlush6_2 t h9)]
      rw [Phi6_pos V c _ _ h0, acc6_later V c t h0]
      iintro ⟨⟨HS, HR, Hg⟩, Ho, ⟨%d0, H0⟩, ⟨%d1, H1⟩, H2⟩
      iapply (kernel6_mid c Set.univ (grid6.coords t) _ _ _ _ _ _ _ _ (iblk6 V c 0 t) (iblk6 V c 1 t)
        (fun h => h0 ((hcond6_1 t).mp h)) (fun h => h9 ((hcond6_2 t).mp h)) _ _)
      iframe H0 H1 HS
      iintro ⟨H0, H1, HS⟩
      iframe

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := by
  rw [show (dat6 V c).Φ 0 = Phi6 V c 0 (Nat.zero_le _) from rfl]
  exact Idealize.SL.BI.Entails.refl _

theorem hout6 (c : Dev nD) : (dat6 V c).Φ (Fin.last cfg6.N) ⊢ (Pipeline.ΦA spec6 c : sProp 𝕄) := by
  rw [show (dat6 V c).Φ (Fin.last cfg6.N) = Phi6 V c cfg6.N (Nat.le_refl _) from rfl,
    Phi6_pos V c _ _ (by rw [show cfg6.N = 10 from N_6]; decide), PhiA6_eq]
  iintro ⟨HS, HR, Hg⟩
  isplitl [HS HR]
  · isplitl [HS]
    · iexists _; iexact HS
    iexact HR
  iexact Hg

end Cert.KernelIdeal.Hand
-- ==== Proof.KI.Reg7.lean ====
import proofs.«420580_j29025388986926_1_alg».proof.Proof.Gen.KernelIdeal.Launch
import proofs.«420580_j29025388986926_1_alg».proof.Proof.Gen.KernelIdeal.Skeleton
import proofs.«420580_j29025388986926_1_alg».proof.Proof.Gen.KernelIdeal.Points
import proofs.«420580_j29025388986926_1_alg».proof.Proof.KI.RegKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rPool7 : Rect S64x128 := Rect.unit (s := S64x128) ![0, 0] S64x128.size inb_S64x128_S64x128_0_0
abbrev rW1_7 : Rect S128x128 := Rect.unit (s := S128x128) ![0, 0] S128x128.size inb_S128x128_S128x128_0_0
abbrev rB1_7 : Rect S1x128 := Rect.unit (s := S1x128) ![0, 0] S1x128.size inb_S1x128_S1x128_0_0
abbrev rW2_7 : Rect S128x1 := Rect.unit (s := S128x1) ![0, 0] S128x1.size inb_S128x1_S128x1_0_0
abbrev rB2_7 : Rect S1x1 := Rect.unit (s := S1x1) ![0, 0] S1x1.size inb_S1x1_S1x1_0_0
abbrev rOut7 : Rect S64x1 := Rect.unit (s := S64x1) ![0, 0] S64x1.size inb_S64x1_S64x1_0_0

/-- What the body leaves in the output buffer: its one store, a function of the five input blocks. -/
def out7 (x : Vec F S64x128 .f32) (w1 : Vec F S128x128 .f32) (b1 : Vec F S1x128 .f32) (w2 : Vec F S128x1 .f32) (b2 : Vec F S1x1 .f32) : Vec F S64x1 .f32 :=
  View.canon [⟨rOut7, k7_pay1 (View.ld x rPool7) (View.ld w1 rW1_7) (View.ld b1 rB1_7) (View.ld w2 rW2_7) (View.ld b2 rB2_7)⟩]

set_option maxHeartbeats 1000000 in
/-- The one store covers the output buffer, so what the buffer held before does not matter. -/
theorem sound_kernel7 (E : Set ℕ) (i : grid7.Coords)
    (a0 : Memref sig .tc .vmem S64x128 .f32) (h0 : a0.IsWhole) (a1 : Memref sig .tc .vmem S128x128 .f32) (h1 : a1.IsWhole)
    (a2 : Memref sig .tc .vmem S1x128 .f32) (h2 : a2.IsWhole) (a3 : Memref sig .tc .vmem S128x1 .f32) (h3 : a3.IsWhole)
    (a4 : Memref sig .tc .vmem S1x1 .f32) (h4 : a4.IsWhole) (a5 : Memref sig .tc .vmem S64x1 .f32) (h5 : a5.IsWhole)
    (x : Vec F S64x128 .f32) (w1 : Vec F S128x128 .f32) (b1 : Vec F S1x128 .f32) (w2 : Vec F S128x1 .f32) (b2 : Vec F S1x1 .f32) :
    iprop(owns c a0 fullShare x ∗ owns c a1 fullShare w1 ∗ owns c a2 fullShare b1
        ∗ owns c a3 fullShare w2 ∗ owns c a4 fullShare b2 ∗ ∃ d, owns c a5 fullShare d)
      ⊢ (wp frame (wpE (defs₀ (F := F)) Variants.none c none) E (cc7__mlp_kernel i a0 h0 a1 h1 a2 h2 a3 h3 a4 h4 a5 h5) fun _ =>
          iprop(owns c a0 fullShare x ∗ owns c a1 fullShare w1 ∗ owns c a2 fullShare b1
            ∗ owns c a3 fullShare w2 ∗ owns c a4 fullShare b2 ∗ owns c a5 fullShare (out7 x w1 b1 w2 b2)) : sProp 𝕄) := by
  simp only [cc7__mlp_kernel_eq_skeleton]; unfold cc7__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩⟩
  subst hf0; subst hf1; subst hf2; subst hf3; subst hf4
  sl_exec
  sl_step
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact View.read_writes_eq_canon _ _ _ (View.cover_of_tiled _ S64x1.size (by rfl))

def dat7 : Dat τ (Elt F) Unit ℕ (UR sig nD τ) ℕ cfg7 c :=
  plainDat cfg7 c (fun w => V c (Pipeline.arrRef spec7 w)) fun w t => match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7 (iblk7 V c 0 t) (iblk7 V c 1 t) (iblk7 V c 2 t) (iblk7 V c 3 t) (iblk7 V c 4 t)

theorem A_eq7 (w : Fin cfg7.W) : (dat7 V c).A w = V c (Pipeline.arrRef spec7 w) := rfl
theorem q_eq7 (w : Fin cfg7.W) : (dat7 V c).q w = fullShare := rfl
theorem owed_eq7 (t : Fin (cfg7.N + 1)) : (dat7 V c).owed t = 0 := rfl
theorem after7_5 (t : Fin cfg7.N) :
    (dat7 V c).after 5 t = out7 (iblk7 V c 0 t) (iblk7 V c 1 t) (iblk7 V c 2 t) (iblk7 V c 3 t) (iblk7 V c 4 t) := by
  dsimp only [dat7, plainDat]
theorem hin7 : (Pipeline.ΦA spec7 c : sProp 𝕄) ⊢ (dat7 V c).Φ 0 := .rfl
theorem hout7 : (dat7 V c).Φ (Fin.last cfg7.N) ⊢ (Pipeline.ΦA spec7 c : sProp 𝕄) := .rfl

theorem before7_0 (t : Fin cfg7.N) (d) : (dat7 V c).before 0 t d = iblk7 V c 0 t :=
  (dat7 V c).before_in_eq_fetched 0 rfl (fun _ => rfl) (fun _ _ _ => rfl) (fun _ => rfl) t d
theorem before7_1 (t : Fin cfg7.N) (d) : (dat7 V c).before 1 t d = iblk7 V c 1 t :=
  (dat7 V c).before_in_eq_fetched 1 rfl (fun _ => rfl) (fun _ _ _ => rfl) (fun _ => rfl) t d
theorem before7_2 (t : Fin cfg7.N) (d) : (dat7 V c).before 2 t d = iblk7 V c 2 t :=
  (dat7 V c).before_in_eq_fetched 2 rfl (fun _ => rfl) (fun _ _ _ => rfl) (fun _ => rfl) t d
theorem before7_3 (t : Fin cfg7.N) (d) : (dat7 V c).before 3 t d = iblk7 V c 3 t :=
  (dat7 V c).before_in_eq_fetched 3 rfl (fun _ => rfl) (fun _ _ _ => rfl) (fun _ => rfl) t d
theorem before7_4 (t : Fin cfg7.N) (d) : (dat7 V c).before 4 t d = iblk7 V c 4 t :=
  (dat7 V c).before_in_eq_fetched 4 rfl (fun _ => rfl) (fun _ _ _ => rfl) (fun _ => rfl) t d

theorem body_obligation7 : BodyObligation (dat7 (F := F) V c) (defs₀ (F := F)) Variants.none () Set.univ :=
  plainDat_obligation rfl (fun _ _ => rfl) fun t => by
    rw [bigSep_W7, bigSep_W7]
    simp only [before7_0, before7_1, before7_2, before7_3, before7_4]
    dsimp only [dat7, plainDat]
    show _ ⊢ wp _ _ _ (bodyAt7 t) _
    iintro ⟨⟨%d0, H0⟩, ⟨%d1, H1⟩, ⟨%d2, H2⟩, ⟨%d3, H3⟩, ⟨%d4, H4⟩, ⟨%d5, H5⟩⟩
    iapply (sound_kernel7 c Set.univ _ _ _ _ _ _ _ _ _ _ _ _ _ (iblk7 V c 0 t) (iblk7 V c 1 t) (iblk7 V c 2 t) (iblk7 V c 3 t) (iblk7 V c 4 t))
    iframe H0 H1 H2 H3 H4
    iexists _; iexact H5

end Cert.KernelIdeal.Hand
-- ==== Proof.KI.Chain.lean ====
import proofs.«420580_j29025388986926_1_alg».proof.Proof.KI.Reg0
import proofs.«420580_j29025388986926_1_alg».proof.Proof.KI.Reg1
import proofs.«420580_j29025388986926_1_alg».proof.Proof.KI.Reg2
import proofs.«420580_j29025388986926_1_alg».proof.Proof.KI.Reg3
import proofs.«420580_j29025388986926_1_alg».proof.Proof.KI.Reg4
import proofs.«420580_j29025388986926_1_alg».proof.Proof.KI.Reg5
import proofs.«420580_j29025388986926_1_alg».proof.Proof.KI.Reg6
import proofs.«420580_j29025388986926_1_alg».proof.Proof.KI.Reg7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev tcView (W : Dev nD → Valuation τ sig (Elt F)) : (c : Dev nD) → (b : Ref sig .tc) → Buf (Elt F) ((c : Thread nD τ).loc b) :=
  fun c b => W c b

abbrev memLaunch : Dev nD → Valuation τ sig (Elt F) := fun c b => m ((c : Dev nD), b)

/-- What a region leaves: its arrays at `A`, every other buffer as it was entered. -/
def leave {gr W : ℕ} (spec : Fin W → Pipeline.WinSpec sig gr) (E : Dev nD → Valuation τ sig (Elt F))
    (A : (c : Dev nD) → (w : Fin W) → Buf (Elt F) ((spec w).arr.view.loc (c.tc : Thread nD τ))) (c : Dev nD) : Valuation τ sig (Elt F) :=
  Pipeline.withArrays spec c (E c) (A c)

theorem leave_arr {gr W : ℕ} {spec : Fin W → Pipeline.WinSpec sig gr} (hinj : Function.Injective (Pipeline.arrRef spec))
    (E : Dev nD → Valuation τ sig (Elt F)) (A) (c : Dev nD) (w : Fin W) :
    leave spec E A c (Proc.devRef .tc (Pipeline.arrRef spec w)) = A c w :=
  Pipeline.withArrays_arr spec hinj c _ _ w

theorem leave_rest {gr W : ℕ} (spec : Fin W → Pipeline.WinSpec sig gr) (E : Dev nD → Valuation τ sig (Elt F)) (A) (c : Dev nD)
    (b : Ref sig .tc) (hb : ∀ w, Pipeline.arrRef spec w ≠ b) : leave spec E A c (Proc.devRef .tc b) = E c (Proc.devRef .tc b) :=
  Pipeline.withArrays_of_ne spec c _ _ b hb

def memZp0 : Dev nD → Valuation τ sig (Elt F) :=
  leave spec0 (memLaunch m) fun c w => (dat0 (tcView (memLaunch m)) c).arrAt w cfg0.N
def memZr0 : Dev nD → Valuation τ sig (Elt F) :=
  leave spec1 (memZp0 m) fun c w => (dat1 (tcView (memZp0 m)) c).arrAt w cfg1.N
abbrev memAgg0 : Dev nD → Valuation τ sig (Elt F) := fun c => StableHlo.after hostOps2 (memZr0 m c)
def memH1 : Dev nD → Valuation τ sig (Elt F) :=
  leave spec2 (memAgg0 m) fun c w => (dat2 (tcView (memAgg0 m)) c).arrAt w cfg2.N
def memZp1 : Dev nD → Valuation τ sig (Elt F) :=
  leave spec3 (memH1 m) fun c w => (dat3 (tcView (memH1 m)) c).arrAt w cfg3.N
def memZr1 : Dev nD → Valuation τ sig (Elt F) :=
  leave spec4 (memZp1 m) fun c w => (dat4 (tcView (memZp1 m)) c).arrAt w cfg4.N
abbrev memAgg1 : Dev nD → Valuation τ sig (Elt F) := fun c => StableHlo.after hostOps5 (memZr1 m c)
def memH2 : Dev nD → Valuation τ sig (Elt F) :=
  leave spec5 (memAgg1 m) fun c w => (dat5 (tcView (memAgg1 m)) c).arrAt w cfg5.N
abbrev memOneHot : Dev nD → Valuation τ sig (Elt F) := fun c => StableHlo.after hostOps6 (memH2 m c)
def memPool : Dev nD → Valuation τ sig (Elt F) :=
  leave spec6 (memOneHot m) fun c w => (dat6 (tcView (memOneHot m)) c).arrAt w cfg6.N
abbrev memMean : Dev nD → Valuation τ sig (Elt F) := fun c => StableHlo.after hostOps7 (memPool m c)
def memOut : Dev nD → Valuation τ sig (Elt F) :=
  leave spec7 (memMean m) fun c w => (dat7 (tcView (memMean m)) c).arrAt w cfg7.N

theorem exitAt0 (c : Dev nD) (w : Fin cfg0.W) :
    memZp0 m c (Proc.devRef .tc (Pipeline.arrRef spec0 w)) = (dat0 (tcView (memLaunch m)) c).arrAt w cfg0.N :=
  leave_arr launch0.win.arr_inj _ _ c w
theorem exitAt1 (c : Dev nD) (w : Fin cfg1.W) :
    memZr0 m c (Proc.devRef .tc (Pipeline.arrRef spec1 w)) = (dat1 (tcView (memZp0 m)) c).arrAt w cfg1.N :=
  leave_arr launch1.win.arr_inj _ _ c w
theorem exitAt2 (c : Dev nD) (w : Fin cfg2.W) :
    memH1 m c (Proc.devRef .tc (Pipeline.arrRef spec2 w)) = (dat2 (tcView (memAgg0 m)) c).arrAt w cfg2.N :=
  leave_arr launch2.win.arr_inj _ _ c w
theorem exitAt3 (c : Dev nD) (w : Fin cfg3.W) :
    memZp1 m c (Proc.devRef .tc (Pipeline.arrRef spec3 w)) = (dat3 (tcView (memH1 m)) c).arrAt w cfg3.N :=
  leave_arr launch3.win.arr_inj _ _ c w
theorem exitAt4 (c : Dev nD) (w : Fin cfg4.W) :
    memZr1 m c (Proc.devRef .tc (Pipeline.arrRef spec4 w)) = (dat4 (tcView (memZp1 m)) c).arrAt w cfg4.N :=
  leave_arr launch4.win.arr_inj _ _ c w
theorem exitAt5 (c : Dev nD) (w : Fin cfg5.W) :
    memH2 m c (Proc.devRef .tc (Pipeline.arrRef spec5 w)) = (dat5 (tcView (memAgg1 m)) c).arrAt w cfg5.N :=
  leave_arr launch5.win.arr_inj _ _ c w
theorem exitAt6 (c : Dev nD) (w : Fin cfg6.W) :
    memPool m c (Proc.devRef .tc (Pipeline.arrRef spec6 w)) = (dat6 (tcView (memOneHot m)) c).arrAt w cfg6.N :=
  leave_arr launch6.win.arr_inj _ _ c w
theorem exitAt7 (c : Dev nD) (w : Fin cfg7.W) :
    memOut m c (Proc.devRef .tc (Pipeline.arrRef spec7 w)) = (dat7 (tcView (memMean m)) c).arrAt w cfg7.N :=
  leave_arr launch7.win.arr_inj _ _ c w

abbrev adm : (p : Fin 8) → (pcfgs (F := F) p).Adm := fun p => (cfgs p).toPCfg_adm

def pdats : (p : Fin 8) → (c : Dev nD) → Dat τ (Elt F) Unit ℕ (UR sig nD τ) ℕ (Pipeline.pin (pcfgs (F := F)) adm p) c
  | ⟨0, _⟩ => fun c => dat0 (tcView (memLaunch m)) c
  | ⟨1, _⟩ => fun c => dat1 (tcView (memZp0 m)) c
  | ⟨2, _⟩ => fun c => dat2 (tcView (memAgg0 m)) c
  | ⟨3, _⟩ => fun c => dat3 (tcView (memH1 m)) c
  | ⟨4, _⟩ => fun c => dat4 (tcView (memZp1 m)) c
  | ⟨5, _⟩ => fun c => dat5 (tcView (memAgg1 m)) c
  | ⟨6, _⟩ => fun c => dat6 (tcView (memOneHot m)) c
  | ⟨7, _⟩ => fun c => dat7 (tcView (memMean m)) c

abbrev 𝒱₀ : Variants := Variants.none

abbrev L : GSem nD τ sig → Finset Unit := fun _ => ∅
abbrev lv : GSem nD τ sig → Unit → ℕ := fun _ _ => 0

abbrev Rest (c : Dev nD) : sProp 𝕄 := iprop((∃ r, prngReg c r) ∗ ∃ W, owes (c : Thread nD τ) (0 : CellTallies nD τ sig Unit) W)

abbrev stateAt (W : Dev nD → Valuation τ sig (Elt F)) (c : Dev nD) : sProp 𝕄 :=
  iprop(StableHlo.held (c : Thread nD τ) (Pipeline.ucRefs τ sig) (W c) ∗ Rest c)

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem hostOps2_fresh : (hostOps2 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Seg.lean ====
import proofs.«420580_j29025388986926_1_alg».proof.Proof.KI.Chain

noncomputable section

namespace Cert.KernelIdeal.Hand

open Cert.KernelIdeal Cert.KernelIdeal.Gen Idealize.ShloMosaic Idealize.SL Idealize.SL.RA Idealize.SL.BI Idealize.SL.BI.BIBase Idealize.SL.ProofMode
open scoped Idealize.SL.BI

variable {F : FTy → Type} [FloatOps F]

local notation "𝕄" => MT nD τ sig Unit (Elt F) ℕ (UR sig nD τ) ℕ

variable (m : (ℓ : Loc nD τ sig) → Buf (Elt F) ℓ)

/-- A region as an item of the run: its arrays are split off the core's buffers at entry and put back beside the rest at exit. -/
def seg (p : Fin 8) (lf : Pipeline.LaunchFacts (nD := nD) (τ := τ) cfgs p) (V V' : Dev nD → Valuation τ sig (Elt F))
    (hb : ∀ c, Pipeline.BodyObligation (pdats m p c) (defs₀ (F := F)) Variants.none () Set.univ)
    (h0 : ∀ c t, (pdats m p c).owed t = 0) (hU : ∀ c, (pdats m p c).recorded 0 = Set.univ) (hq : ∀ c w, (pdats m p c).q w = fullShare)
    (hA : ∀ c w, (pdats m p c).A w = tcView V c (Pipeline.arrRef (cfgs p).spec w))
    (hi : ∀ c, (Pipeline.ΦA (cfgs p).spec c : sProp 𝕄) ⊢ (pdats m p c).Φ 0)
    (ho : ∀ c, (pdats m p c).Φ (Fin.last (cfgs p).N) ⊢ (Pipeline.ΦA (cfgs p).spec c : sProp 𝕄))
    (hF : ∀ c w, (pdats m p c).arrAt w (cfgs p).N = tcView V' c (Pipeline.arrRef (cfgs p).spec w))
    (hR : ∀ c b, (∀ w, Pipeline.arrRef (cfgs p).spec w ≠ b) → V' c (Proc.devRef .tc b) = V c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre := stateAt V
  post := stateAt V'
  X c := iprop(∃ r, prngReg c r)
  Y c := iprop(∃ r, prngReg c r)
  Z c := Pipeline.unscopedRest (cfgs p).spec c (tcView V c)
  hentry c := by
    have hs := Pipeline.arrays_of_unscopedBufs _ _ (pdats m) lf.win lf.arr_whole c ((pdats m p c).share_full (hq c)) (tcView V c) (hA c)
    rw [Pipeline.unscopedBufs_held] at hs
    iintro ⟨⟨Hbufs, Hgen, %W, Howe⟩, -⟩
    ihave ⟨Harr, Hrest⟩ := hs $$ Hbufs
    imodintro
    iframe Harr Hgen Hrest
    isplitr; · unfold Pipeline.prefHeld; rw [show (Finset.univ : Finset (Fin 0)) = ∅ from rfl, BI.bigSep_empty]; iempintro
    iexists W; isplitr; · ipureintro; exact fun _ _ => Or.inl (hU c ▸ trivial)
    rw [h0]; iexact Howe
  hin c := BIBase.Entails.trans (by unfold Pipeline.ΦA; iintro ⟨Hgen, -, Hsc⟩; iframe) (hi c)
  hout c := (ho c).trans (by
    rw [Pipeline.ownSems0_none]; unfold Pipeline.ΦA
    iintro ⟨Hsc, Hgen⟩; iframe; iempintro)
  hexit c := by
    have hj := Pipeline.unscopedBufs_of_arrays _ _ lf.win lf.arr_whole c (pdats m) ((pdats m p c).share_full (hq c)) (tcView V c) (tcView V' c) _ (hF c)
      fun b hb => hR c b fun w e => hb (Finset.mem_image.mpr ⟨w, Finset.mem_univ _, e⟩)
    rw [Pipeline.unscopedBufs_held] at hj
    iintro ⟨Harr, ⟨%W, -, Howe⟩, Hgen, Hrest⟩
    imodintro
    isplitl [Harr Hrest]
    · iapply hj; iframe
    isplitl [Hgen]; · iexact Hgen
    iexists W; rw [h0]; iexact Howe

def item0 := seg m 0 launch0 (memLaunch m) (memZp0 m) (body_obligation0 _) (owed_eq0 _) (fun _ => rfl) (q_eq0 _) (A_eq0 _) (hin0 _) (hout0 _) (fun c w => (exitAt0 m c w).symm) (leave_rest _ _ _)
def item1 := seg m 1 launch1 (memZp0 m) (memZr0 m) (body_obligation1 _) (owed_eq1 _) (fun _ => rfl) (q_eq1 _) (A_eq1 _) (hin1 _) (hout1 _) (fun c w => (exitAt1 m c w).symm) (leave_rest _ _ _)
def item2 := seg m 2 launch2 (memAgg0 m) (memH1 m) (body_obligation2 _) (owed_eq2 _) (fun _ => rfl) (q_eq2 _) (A_eq2 _) (hin2 _) (hout2 _) (fun c w => (exitAt2 m c w).symm) (leave_rest _ _ _)
def item3 := seg m 3 launch3 (memH1 m) (memZp1 m) (body_obligation3 _) (owed_eq3 _) (fun _ => rfl) (q_eq3 _) (A_eq3 _) (hin3 _) (hout3 _) (fun c w => (exitAt3 m c w).symm) (leave_rest _ _ _)
def item4 := seg m 4 launch4 (memZp1 m) (memZr1 m) (body_obligation4 _) (owed_eq4 _) (fun _ => rfl) (q_eq4 _) (A_eq4 _) (hin4 _) (hout4 _) (fun c w => (exitAt4 m c w).symm) (leave_rest _ _ _)
def item5 := seg m 5 launch5 (memAgg1 m) (memH2 m) (body_obligation5 _) (owed_eq5 _) (fun _ => rfl) (q_eq5 _) (A_eq5 _) (hin5 _) (hout5 _) (fun c w => (exitAt5 m c w).symm) (leave_rest _ _ _)
def item6 := seg m 6 launch6 (memOneHot m) (memPool m) (body_obligation6 _) (owed_eq6 _) (fun _ => rfl) (q_eq6 _) (A_eq6 _) (hin6 _) (hout6 _) (fun c w => (exitAt6 m c w).symm) (leave_rest _ _ _)
def item7 := seg m 7 launch7 (memMean m) (memOut m) (body_obligation7 _) (owed_eq7 _) (fun _ => rfl) (q_eq7 _) (A_eq7 _) (hin7 _) (hout7 _) (fun c w => (exitAt7 m c w).symm) (leave_rest _ _ _)

end Cert.KernelIdeal.Hand

end
-- ==== Proof.KI.Run.lean ====
import proofs.«420580_j29025388986926_1_alg».proof.Proof.KI.Seg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev items : List (Pipeline.Seg (pcfgs (F := F)) adm (pdats m) () defs₀ 𝒱₀ L lv) :=
  [ .region (item0 m),
    .region (item1 m),
    .host (hostItem hostOps2 hostOps2_sub hostOps2_fresh (memZr0 m)),
    .region (item2 m),
    .region (item3 m),
    .region (item4 m),
    .host (hostItem hostOps5 hostOps5_sub hostOps5_fresh (memZr1 m)),
    .region (item5 m),
    .host (hostItem hostOps6 hostOps6_sub hostOps6_fresh (memH2 m)),
    .region (item6 m),
    .host (hostItem hostOps7 hostOps7_sub hostOps7_fresh (memPool m)),
    .region (item7 m) ]

theorem main_items (c : Dev nD) : main (F := F) c = Pipeline.Seg.run (items m) := by
  rw [Pipeline.Seg.run_eq_chain]
  exact main_chain c

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = memOut m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stateAt (memLaunch m))
    (Tₙ := fun c => iprop(StableHlo.held (c : Thread nD τ) (Pipeline.ucRefs τ sig) (memOut m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show stateAt (memOut m) c ⊢ _
        iintro ⟨Hbufs, Hgen, Howe⟩
        isplitl [Hbufs Hgen]
        · isplitl [Hbufs]; · iexact Hbufs
          iexact Hgen
        iexact Howe⟩)
    (hinit := by
      refine Pipeline.initEach L lv fun c => ?_
      rw [show unscopedBufs c (fun b => m ((c : Thread nD τ).loc b)) = StableHlo.held (c : Thread nD τ) (Pipeline.ucRefs τ sig) (memLaunch m c)
        from Pipeline.unscopedBufs_held c (memLaunch m c)]
      iintro ⟨⟨Hbufs, -, Howe, -, Hgen, -⟩, -⟩
      imodintro
      isplitl [Hbufs]; · iexact Hbufs
      isplitl [Hgen]; · iexists _; iexact Hgen
      iexists ∅; iexact Howe)
    (QY := fun c s => ∀ b ∈ Pipeline.ucRefs τ sig, s.mem (((c : Thread nD τ)).1, b) = memOut m c b)
    (hfin := fun c s' => by
      iintro ⟨⟨Hbufs, -⟩, HSI⟩
      unfold StableHlo.held
      imodintro
      iapply (pointsTo_read_all (Pipeline.ucRefs τ sig) (fun b => (((c : Thread nD τ)).1, b)) (memOut m c) s')
      isplitl [Hbufs] <;> iassumption)
    (hQ := fun s h c => h c)

end Cert.KernelIdeal.Hand

end
-- ==== Proof.KI.Frame.lean ====
import proofs.«420580_j29025388986926_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hostOps2_W : List (Ref sig .tc) := [main_v2, main_v3, main_v4, main_v5, main_cst, main_v6, main_c, main_v7, main_v8, main_c_0, main_v9, main_v10, main_v11, main_v12, main_cst_1, main_v13, main_v14, main_cst_2, main_v15, main_v16, main_v17, main_c_3, main_v18, main_v19, main_c_4, main_v20, main_v21, main_v22, main_v23, main_v24, main_c_5, main_v25, main_v26, main_c_6, main_v27, main_v28, main_v29, main_v30, main_v31, main_c_7, main_v32, main_v33, main_c_8, main_v34, main_v35, main_v36, main_v37, main_v38, main_v39, main_v40, main_v41, main_v42, main_cst_9, main_v43, main_v44, main_v45, main_v46, main_v47, main_v48, main_v49, main_v50, main_v51, main_v52, main_v53, main_v54, main_cst_10, main_v55, main_c_11, main_v56, main_v57, main_c_12, main_v58, main_v59, main_v60, main_v61, main_cst_13, main_v62, main_v63, main_cst_14, main_v64, main_v65, main_v66, main_c_15, main_v67, main_v68, main_c_16, main_v69, main_v70, main_v71, main_v72, main_v73, main_c_17, main_v74, main_v75, main_c_18, main_v76, main_v77, main_v78, main_v79, main_v80, main_c_19, main_v81, main_v82, main_c_20, main_v83, main_v84, main_v85, main_v86, main_v87, main_v88, main_v89, main_v90, main_v91, main_cst_21, main_v92, main_v93, main_v94, main_v95, main_v96, main_v97, main_v98, main_v99, main_v100, main_v101]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev hostOps5_W : List (Ref sig .tc) := [main_v105, main_v106, main_v107, main_v108, main_cst_22, main_v109, main_c_23, main_v110, main_v111, main_c_24, main_v112, main_v113, main_v114, main_v115, main_cst_25, main_v116, main_v117, main_cst_26, main_v118, main_v119, main_v120, main_c_27, main_v121, main_v122, main_c_28, main_v123, main_v124, main_v125, main_v126, main_v127, main_c_29, main_v128, main_v129, main_c_30, main_v130, main_v131, main_v132, main_v133, main_v134, main_c_31, main_v135, main_v136, main_c_32, main_v137, main_v138, main_v139, main_v140, main_v141, main_v142, main_v143, main_v144, main_v145, main_cst_33, main_v146, main_v147, main_v148, main_v149, main_v150, main_v151, main_v152, main_v153, main_v154, main_v155, main_v156, main_v157, main_cst_34, main_v158, main_c_35, main_v159, main_v160, main_c_36, main_v161, main_v162, main_v163, main_v164, main_cst_37, main_v165, main_v166, main_cst_38, main_v167, main_v168, main_v169, main_c_39, main_v170, main_v171, main_c_40, main_v172, main_v173, main_v174, main_v175, main_v176, main_c_41, main_v177, main_v178, main_c_42, main_v179, main_v180, main_v181, main_v182, main_v183, main_c_43, main_v184, main_v185, main_c_44, main_v186, main_v187, main_v188, main_v189, main_v190, main_v191, main_v192, main_v193, main_v194, main_cst_45, main_v195, main_v196, main_v197, main_v198, main_v199, main_v200, main_v201, main_v202, main_v203, main_v204]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev hostOps6_W : List (Ref sig .tc) := [main_v206, main_v207, main_v208, main_v209, main_v210, main_v211, main_v212, main_cst_46, main_v213]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev hostOps7_W : List (Ref sig .tc) := [main_cst_47, main_v215, main_v216, main_v217, main_v218, main_v219, main_v220, main_v221]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer outside the region's arrays bypasses the region; its arrays outside `outs` are given to be left as found. -/
theorem keep_of_windows {W : ℕ} (ref : Fin W → Ref sig .tc) (outs : List (Ref sig .tc)) {X E : Valuation τ sig (Elt F)}
    (hrest : ∀ b, (∀ w, ref w ≠ b) → X (Proc.devRef .tc b) = E (Proc.devRef .tc b))
    (harr : ∀ w, ref w ∉ outs → X (Proc.devRef .tc (ref w)) = E (Proc.devRef .tc (ref w)))
    (b : Ref sig .tc) (hb : b ∉ outs) : X (Proc.devRef .tc b) = E (Proc.devRef .tc b) := by
  by_cases h : ∀ w, ref w ≠ b
  · exact hrest b h
  · obtain ⟨w, hw⟩ := not_forall.mp h
    obtain rfl := not_not.mp hw
    exact harr w hb

theorem keep0 (c : Dev nD) : ∀ b ∉ ([main_v0] : List (Ref sig .tc)), memZp0 m c (Proc.devRef .tc b) = memLaunch m c (Proc.devRef .tc b) :=
  keep_of_windows (Pipeline.arrRef spec0) _ (leave_rest _ _ _ c) fun w hw =>
    (exitAt0 m c w).trans (((dat0 (tcView (memLaunch m)) c).arrAt_in w
      ((by decide : ∀ w : Fin cfg0.W, Pipeline.arrRef spec0 w ∉ [main_v0] → (cfg0.win w).isOut = false) w hw) _).trans (A_eq0 (tcView (memLaunch m)) c w))
theorem keep1 (c : Dev nD) : ∀ b ∉ ([main_v1] : List (Ref sig .tc)), memZr0 m c (Proc.devRef .tc b) = memZp0 m c (Proc.devRef .tc b) :=
  keep_of_windows (Pipeline.arrRef spec1) _ (leave_rest _ _ _ c) fun w hw =>
    (exitAt1 m c w).trans (((dat1 (tcView (memZp0 m)) c).arrAt_in w
      ((by decide : ∀ w : Fin cfg1.W, Pipeline.arrRef spec1 w ∉ [main_v1] → (cfg1.win w).isOut = false) w hw) _).trans (A_eq1 (tcView (memZp0 m)) c w))
theorem keep2 (c : Dev nD) : ∀ b ∉ ([main_v102] : List (Ref sig .tc)), memH1 m c (Proc.devRef .tc b) = memAgg0 m c (Proc.devRef .tc b) :=
  keep_of_windows (Pipeline.arrRef spec2) _ (leave_rest _ _ _ c) fun w hw =>
    (exitAt2 m c w).trans (((dat2 (tcView (memAgg0 m)) c).arrAt_in w
      ((by decide : ∀ w : Fin cfg2.W, Pipeline.arrRef spec2 w ∉ [main_v102] → (cfg2.win w).isOut = false) w hw) _).trans (A_eq2 (tcView (memAgg0 m)) c w))
theorem keep3 (c : Dev nD) : ∀ b ∉ ([main_v103] : List (Ref sig .tc)), memZp1 m c (Proc.devRef .tc b) = memH1 m c (Proc.devRef .tc b) :=
  keep_of_windows (Pipeline.arrRef spec3) _ (leave_rest _ _ _ c) fun w hw =>
    (exitAt3 m c w).trans (((dat3 (tcView (memH1 m)) c).arrAt_in w
      ((by decide : ∀ w : Fin cfg3.W, Pipeline.arrRef spec3 w ∉ [main_v103] → (cfg3.win w).isOut = false) w hw) _).trans (A_eq3 (tcView (memH1 m)) c w))
theorem keep4 (c : Dev nD) : ∀ b ∉ ([main_v104] : List (Ref sig .tc)), memZr1 m c (Proc.devRef .tc b) = memZp1 m c (Proc.devRef .tc b) :=
  keep_of_windows (Pipeline.arrRef spec4) _ (leave_rest _ _ _ c) fun w hw =>
    (exitAt4 m c w).trans (((dat4 (tcView (memZp1 m)) c).arrAt_in w
      ((by decide : ∀ w : Fin cfg4.W, Pipeline.arrRef spec4 w ∉ [main_v104] → (cfg4.win w).isOut = false) w hw) _).trans (A_eq4 (tcView (memZp1 m)) c w))
theorem keep5 (c : Dev nD) : ∀ b ∉ ([main_v205] : List (Ref sig .tc)), memH2 m c (Proc.devRef .tc b) = memAgg1 m c (Proc.devRef .tc b) :=
  keep_of_windows (Pipeline.arrRef spec5) _ (leave_rest _ _ _ c) fun w hw =>
    (exitAt5 m c w).trans (((dat5 (tcView (memAgg1 m)) c).arrAt_in w
      ((by decide : ∀ w : Fin cfg5.W, Pipeline.arrRef spec5 w ∉ [main_v205] → (cfg5.win w).isOut = false) w hw) _).trans (A_eq5 (tcView (memAgg1 m)) c w))
theorem keep6 (c : Dev nD) : ∀ b ∉ ([main_v214] : List (Ref sig .tc)), memPool m c (Proc.devRef .tc b) = memOneHot m c (Proc.devRef .tc b) :=
  keep_of_windows (Pipeline.arrRef spec6) _ (leave_rest _ _ _ c) fun w hw =>
    (exitAt6 m c w).trans (((dat6 (tcView (memOneHot m)) c).arrAt_in w
      ((by decide : ∀ w : Fin cfg6.W, Pipeline.arrRef spec6 w ∉ [main_v214] → (cfg6.win w).isOut = false) w hw) _).trans (A_eq6 (tcView (memOneHot m)) c w))
theorem keep7 (c : Dev nD) : ∀ b ∉ ([main_v222] : List (Ref sig .tc)), memOut m c (Proc.devRef .tc b) = memMean m c (Proc.devRef .tc b) :=
  keep_of_windows (Pipeline.arrRef spec7) _ (leave_rest _ _ _ c) fun w hw =>
    (exitAt7 m c w).trans (((dat7 (tcView (memMean m)) c).arrAt_in w
      ((by decide : ∀ w : Fin cfg7.W, Pipeline.arrRef spec7 w ∉ [main_v222] → (cfg7.win w).isOut = false) w hw) _).trans (A_eq7 (tcView (memMean m)) c w))

theorem keep_hostOps2 (c : Dev nD) : ∀ b ∉ hostOps2_W, memAgg0 m c (Proc.devRef .tc b) = memZr0 m c (Proc.devRef .tc b) :=
  fun _ hb => StableHlo.after_of_writes_sub hostOps2 _ hostOps2_writes hb
theorem keep_hostOps5 (c : Dev nD) : ∀ b ∉ hostOps5_W, memAgg1 m c (Proc.devRef .tc b) = memZr1 m c (Proc.devRef .tc b) :=
  fun _ hb => StableHlo.after_of_writes_sub hostOps5 _ hostOps5_writes hb
theorem keep_hostOps6 (c : Dev nD) : ∀ b ∉ hostOps6_W, memOneHot m c (Proc.devRef .tc b) = memH2 m c (Proc.devRef .tc b) :=
  fun _ hb => StableHlo.after_of_writes_sub hostOps6 _ hostOps6_writes hb
theorem keep_hostOps7 (c : Dev nD) : ∀ b ∉ hostOps7_W, memMean m c (Proc.devRef .tc b) = memPool m c (Proc.devRef .tc b) :=
  fun _ hb => StableHlo.after_of_writes_sub hostOps7 _ hostOps7_writes hb

/-- A buffer unwritten up to a boundary, and unwritten by the next item, is unwritten up to the next boundary. -/
theorem launch_step {X E : Valuation τ sig (Elt F)} {c : Dev nD} {wE wK : List (Ref sig .tc)}
    (hk : ∀ b ∉ wK, X (Proc.devRef .tc b) = E (Proc.devRef .tc b))
    (hE : ∀ b ∉ wE, E (Proc.devRef .tc b) = m ((c : Thread nD τ).loc b)) :
    ∀ b ∉ wE ++ wK, X (Proc.devRef .tc b) = m ((c : Thread nD τ).loc b) := fun b hb =>
  (hk b fun h => hb (List.mem_append_right _ h)).trans (hE b fun h => hb (List.mem_append_left _ h))

abbrev wr_memZp0 : List (Ref sig .tc) := [main_v0]
theorem launch_memZp0 (c : Dev nD) : ∀ b ∉ wr_memZp0, memZp0 m c (Proc.devRef .tc b) = m ((c : Thread nD τ).loc b) := keep0 m c
abbrev wr_memZr0 : List (Ref sig .tc) := wr_memZp0 ++ [main_v1]
theorem launch_memZr0 (c : Dev nD) : ∀ b ∉ wr_memZr0, memZr0 m c (Proc.devRef .tc b) = m ((c : Thread nD τ).loc b) :=
  launch_step m (keep1 m c) (launch_memZp0 m c)
abbrev wr_memAgg0 : List (Ref sig .tc) := wr_memZr0 ++ hostOps2_W
theorem launch_memAgg0 (c : Dev nD) : ∀ b ∉ wr_memAgg0, memAgg0 m c (Proc.devRef .tc b) = m ((c : Thread nD τ).loc b) :=
  launch_step m (keep_hostOps2 m c) (launch_memZr0 m c)
abbrev wr_memH1 : List (Ref sig .tc) := wr_memAgg0 ++ [main_v102]
theorem launch_memH1 (c : Dev nD) : ∀ b ∉ wr_memH1, memH1 m c (Proc.devRef .tc b) = m ((c : Thread nD τ).loc b) :=
  launch_step m (keep2 m c) (launch_memAgg0 m c)
abbrev wr_memZp1 : List (Ref sig .tc) := wr_memH1 ++ [main_v103]
theorem launch_memZp1 (c : Dev nD) : ∀ b ∉ wr_memZp1, memZp1 m c (Proc.devRef .tc b) = m ((c : Thread nD τ).loc b) :=
  launch_step m (keep3 m c) (launch_memH1 m c)
abbrev wr_memZr1 : List (Ref sig .tc) := wr_memZp1 ++ [main_v104]
theorem launch_memZr1 (c : Dev nD) : ∀ b ∉ wr_memZr1, memZr1 m c (Proc.devRef .tc b) = m ((c : Thread nD τ).loc b) :=
  launch_step m (keep4 m c) (launch_memZp1 m c)
abbrev wr_memAgg1 : List (Ref sig .tc) := wr_memZr1 ++ hostOps5_W
theorem launch_memAgg1 (c : Dev nD) : ∀ b ∉ wr_memAgg1, memAgg1 m c (Proc.devRef .tc b) = m ((c : Thread nD τ).loc b) :=
  launch_step m (keep_hostOps5 m c) (launch_memZr1 m c)
abbrev wr_memH2 : List (Ref sig .tc) := wr_memAgg1 ++ [main_v205]
theorem launch_memH2 (c : Dev nD) : ∀ b ∉ wr_memH2, memH2 m c (Proc.devRef .tc b) = m ((c : Thread nD τ).loc b) :=
  launch_step m (keep5 m c) (launch_memAgg1 m c)
abbrev wr_memOneHot : List (Ref sig .tc) := wr_memH2 ++ hostOps6_W
theorem launch_memOneHot (c : Dev nD) : ∀ b ∉ wr_memOneHot, memOneHot m c (Proc.devRef .tc b) = m ((c : Thread nD τ).loc b) :=
  launch_step m (keep_hostOps6 m c) (launch_memH2 m c)
abbrev wr_memPool : List (Ref sig .tc) := wr_memOneHot ++ [main_v214]
theorem launch_memPool (c : Dev nD) : ∀ b ∉ wr_memPool, memPool m c (Proc.devRef .tc b) = m ((c : Thread nD τ).loc b) :=
  launch_step m (keep6 m c) (launch_memOneHot m c)
abbrev wr_memMean : List (Ref sig .tc) := wr_memPool ++ hostOps7_W
theorem launch_memMean (c : Dev nD) : ∀ b ∉ wr_memMean, memMean m c (Proc.devRef .tc b) = m ((c : Thread nD τ).loc b) :=
  launch_step m (keep_hostOps7 m c) (launch_memPool m c)
abbrev wr_memOut : List (Ref sig .tc) := wr_memMean ++ [main_v222]
theorem launch_memOut (c : Dev nD) : ∀ b ∉ wr_memOut, memOut m c (Proc.devRef .tc b) = m ((c : Thread nD τ).loc b) :=
  launch_step m (keep7 m c) (launch_memMean m c)

/-- The run ends without a fault with every unscoped buffer that no item writes as launched. -/
theorem unwritten_kept : θ_run defs (onTc (τ := τ) (main (F := F))) ⟨m, fun _ => 0, ρ⟩ (fun r => ∀ (c : Dev nD) (b : Ref sig .tc),
      ¬ (Proc.devRef .tc b : DevRef τ sig).isScoped → b ∉ wr_memOut →
      r.2.mem ((c.tc : Thread nD τ).loc b) = m ((c.tc : Thread nD τ).loc b)) :=
  (θ_run defs _ _).mono (fun r h c b hs hb => (h c _ (mem_uc b hs)).trans (launch_memOut m c b hb)) (run_all m ρ)

end Cert.KernelIdeal.Hand

end
-- ==== Proof.Val.LinKit.lean ====
import Idealize.ShloMosaic.Lib.StackMember
import Idealize.ShloMosaic.Lib.ValueLayout
import Idealize.ShloMosaic.Lib.QrPanel.Panel

namespace Cert.Val

open Idealize.ShloMosaic Idealize.ShloMosaic.ValueIdx Idealize.ShloMosaic.StackMember

variable {M K N R n : Nat} {i : Fin 2 → Nat}

/-- A window's block index `i` is `(n, 0)`: row block `n`, all columns. -/
abbrev AtRow (n : Nat) (i : Fin 2 → Nat) : Prop := i 0 = n ∧ i 1 = 0

/-- An element of such a block sits `n` block heights down its array, in its own column. -/
theorem AtRow.emb (h : AtRow n i) {e : (⟨2, ![M, K]⟩ : Shape).Idx → (⟨2, ![R, K]⟩ : Shape).Idx}
    (he : ∀ y a, (e y a : ℕ) = i a * ![M, K] a + y a) (y : (⟨2, ![M, K]⟩ : Shape).Idx) :
    (e y 0 : ℕ) = n * M + y 0 ∧ (e y 1 : ℕ) = y 1 := by
  have e0 := he y 0
  have e1 := he y 1
  rw [h.1] at e0
  rw [h.2] at e1
  exact ⟨e0, e1.trans (by rw [Nat.zero_mul, Nat.zero_add])⟩

/-- When the block is the whole array, each element sits at its own index. -/
theorem AtRow.emb_self (h : AtRow 0 i) {e : (⟨2, ![M, K]⟩ : Shape).Idx → (⟨2, ![M, K]⟩ : Shape).Idx}
    (he : ∀ y a, (e y a : ℕ) = i a * ![M, K] a + y a) (y : (⟨2, ![M, K]⟩ : Shape).Idx) : e y = y :=
  Shape.idx_ext₂ ((h.emb he y).1.trans (by rw [Nat.zero_mul, Nat.zero_add])) (h.emb he y).2

/-- A row block times the whole right operand is that block of the whole product: the same sum over the contracted axis. -/
theorem rowblock_dot {dK : DotDims ⟨2, ![M, K]⟩ ⟨2, ![K, N]⟩ ⟨2, ![M, N]⟩} {dH : DotDims ⟨2, ![R, K]⟩ ⟨2, ![K, N]⟩ ⟨2, ![R, N]⟩}
    (hK : dK = .plain M K N) (hH : dH = .plain R K N) {x : FVec Ideal ⟨2, ![M, K]⟩ .f32} {w W : FVec Ideal ⟨2, ![K, N]⟩ .f32}
    {A : FVec Ideal ⟨2, ![R, K]⟩ .f32} {eA : (⟨2, ![M, K]⟩ : Shape).Idx → (⟨2, ![R, K]⟩ : Shape).Idx}
    {eW : (⟨2, ![K, N]⟩ : Shape).Idx → (⟨2, ![K, N]⟩ : Shape).Idx} {eO : (⟨2, ![M, N]⟩ : Shape).Idx → (⟨2, ![R, N]⟩ : Shape).Idx}
    {iA iW iO : Fin 2 → Nat} (hi : AtRow n iA ∧ AtRow 0 iW ∧ AtRow n iO) (hA : ∀ y a, (eA y a : ℕ) = iA a * ![M, K] a + y a)
    (hW : ∀ y a, (eW y a : ℕ) = iW a * ![K, N] a + y a) (hO : ∀ y a, (eO y a : ℕ) = iO a * ![M, N] a + y a)
    (hx : ∀ y, x y = A (eA y)) (hw : ∀ y, w y = W (eW y)) (hb : FTy.bits .bf16 < FTy.bits .f32) (j : (⟨2, ![M, N]⟩ : Shape).Idx) :
    matmul dK none (truncf .bf16 x hb) (truncf .bf16 w hb) (constant _ .f32 0x00000000#32) j = Host.dotGeneral dH none A W (eO j) := by
  subst hK hH
  obtain ⟨a, b, rfl⟩ : ∃ a b, j = ix2 a b := ⟨j 0, j 1, eq_ix2 j⟩
  obtain ⟨r, s, hrs⟩ : ∃ (r : Fin R) (s : Fin N), eO (ix2 a b) = ix2 r s := ⟨_, _, eq_ix2 _⟩
  obtain ⟨o0, o1⟩ := hi.2.2.emb hO (ix2 a b)
  rw [hrs] at o0 o1
  rw [matmul_zero_eq_dotGeneral, hrs, dotGeneral_plain_apply, dotGeneral_plain_apply]
  refine Finset.sum_congr rfl fun k _ => ?_
  obtain ⟨a0, a1⟩ := hi.1.emb hA (ix2 a k)
  show x _ * w _ = _
  rw [hx, hw, hi.2.1.emb_self hW, show eA (ix2 a k) = ix2 r k from Shape.idx_ext₂ (a0.trans o0.symm) a1,
    show s = b from Fin.ext o1]

/-- Two row blocks plus two broadcast rows, rectified, is that block of the same combination of the whole arrays. -/
theorem rowblock_comb {x0 x2 : FVec Ideal ⟨2, ![M, N]⟩ .f32} {r1 r3 B1 B3 : FVec Ideal ⟨2, ![1, N]⟩ .f32}
    {A0 A2 : FVec Ideal ⟨2, ![R, N]⟩ .f32} {e0 e2 eO : (⟨2, ![M, N]⟩ : Shape).Idx → (⟨2, ![R, N]⟩ : Shape).Idx}
    {e1 e3 : (⟨2, ![1, N]⟩ : Shape).Idx → (⟨2, ![1, N]⟩ : Shape).Idx} {i0 i1 i2 i3 iO : Fin 2 → Nat}
    (hi : AtRow n i0 ∧ AtRow 0 i1 ∧ AtRow n i2 ∧ AtRow 0 i3 ∧ AtRow n iO)
    (he0 : ∀ y a, (e0 y a : ℕ) = i0 a * ![M, N] a + y a) (he1 : ∀ y a, (e1 y a : ℕ) = i1 a * ![1, N] a + y a)
    (he2 : ∀ y a, (e2 y a : ℕ) = i2 a * ![M, N] a + y a) (he3 : ∀ y a, (e3 y a : ℕ) = i3 a * ![1, N] a + y a)
    (heO : ∀ y a, (eO y a : ℕ) = iO a * ![M, N] a + y a) (h0 : ∀ y, x0 y = A0 (e0 y)) (h1 : ∀ y, r1 y = B1 (e1 y))
    (h2 : ∀ y, x2 y = A2 (e2 y)) (h3 : ∀ y, r3 y = B3 (e3 y)) (hc : (⟨2, ![M, N]⟩ : Shape).ShapeCasts ⟨2, ![M, N]⟩)
    (hr : (⟨2, ![1, N]⟩ : Shape).ShapeCasts ⟨2, ![1, N]⟩) (hb : (⟨2, ![1, N]⟩ : Shape).Broadcasts ⟨2, ![M, N]⟩)
    (j : (⟨2, ![M, N]⟩ : Shape).Idx) :
    maximumf (addf (addf (addf (shapeCast _ x0 hc) (broadcastTo _ (shapeCast _ (shapeCast _ r1 hr) hr) hb)) (shapeCast _ x2 hc))
        (broadcastTo _ (shapeCast _ (shapeCast _ r3 hr) hr) hb)) (broadcast _ (Scalar.ofBits .f32 0x00000000#32)) j
      = max (((A0 (eO j) + B1 (ix2 0 (eO j 1))) + A2 (eO j)) + B3 (ix2 0 (eO j 1))) 0 := by
  obtain ⟨p, q, rfl⟩ : ∃ p q, j = ix2 p q := ⟨j 0, j 1, eq_ix2 j⟩
  obtain ⟨o0, o1⟩ := hi.2.2.2.2.emb heO (ix2 p q)
  obtain ⟨a0, a1⟩ := hi.1.emb he0 (ix2 p q)
  obtain ⟨c0, c1⟩ := hi.2.2.1.emb he2 (ix2 p q)
  simp only [maximumf_apply, addf_apply, broadcast_apply, shapeCast_self, broadcastTo_1b_ab_apply]
  rw [h0, h1, h2, h3, hi.2.1.emb_self he1, hi.2.2.2.1.emb_self he3,
    show e0 (ix2 p q) = eO (ix2 p q) from Shape.idx_ext₂ (a0.trans o0.symm) (a1.trans o1.symm),
    show e2 (ix2 p q) = eO (ix2 p q) from Shape.idx_ext₂ (c0.trans o0.symm) (c1.trans o1.symm),
    show eO (ix2 p q) 1 = q from Fin.ext o1]
  exact congrArg (max _) Ideal.ofBits_zero_f32

/-- The row blocks of height `M` tile an array of at most `p * M` rows: row `r` is in block `r / M`. -/
theorem rowblock_cover {P p : Nat} (hP : P = p) (hR : R ≤ p * M) {iO : Fin P → Fin 2 → Nat} (h : ∀ t, AtRow t.val (iO t))
    (i : (⟨2, ![R, N]⟩ : Shape).Idx) : ∃ t, ∀ a, iO t a * ![M, N] a ≤ i a ∧ (i a : ℕ) < iO t a * ![M, N] a + ![M, N] a := by
  subst hP
  have hi : (i 0 : ℕ) < M * P := Nat.mul_comm P M ▸ Nat.lt_of_lt_of_le (i 0).isLt hR
  have hM : 0 < M := Nat.pos_of_ne_zero fun h0 => by rw [h0, Nat.zero_mul] at hi; exact Nat.not_lt_zero _ hi
  refine ⟨⟨i 0 / M, Nat.div_lt_of_lt_mul hi⟩, Fin.forall_fin_two.mpr ⟨?_, ?_⟩⟩
  · rw [(h _).1]; exact ⟨Nat.div_mul_le_self _ _, Nat.lt_div_mul_add hM⟩
  · rw [(h _).2, Nat.zero_mul, Nat.zero_add]; exact ⟨Nat.zero_le _, (i 1).isLt⟩

end Cert.Val
-- ==== Proof.Val.Lin0.lean ====
import proofs.«420580_j29025388986926_1_alg».proof.Proof.KI.Reg0
import proofs.«420580_j29025388986926_1_alg».proof.Proof.Gen.ReferenceIdeal
import proofs.«420580_j29025388986926_1_alg».proof.Proof.Val.LinKit

namespace Cert.KernelIdeal.Hand

open Cert.KernelIdeal.Gen Cert.Val Idealize.ShloMosaic Idealize.ShloMosaic.TcCoe Idealize.ShloMosaic.QrPanel.Panel

variable (V : (c : Dev nD) → (b : Ref sig .tc) → Buf (Elt Ideal) ((c : Thread nD τ).loc b))

theorem lin0_idx : ∀ t : Fin cfg0.N,
    AtRow t (win0_0.index t) ∧ AtRow 0 (win0_1.index t) ∧ AtRow t (win0_2.index t) :=
  (by decide +kernel : ∀ t : Fin grid0.N, _)

/-- Each grid point's output block is that row block of the product, and the ten blocks tile the rows. -/
theorem lin0_final (c : Dev nD) : (dat0 (F := Ideal) V c).arrAt 2 cfg0.N
    = Host.dotGeneral (F := Ideal) (φ₁ := .f32) (φ₂ := .f32) Cert.ReferenceIdeal.dot_S50000x64_S64x128_S50000x128_1_0_0_1_n_n none (V c main_arg0) (V c main_arg1) :=
  (dat0 (F := Ideal) V c).arrAt_eq_of_cover 2 _ (fun t _ => by
    rw [Pipeline.Dat.flushed, after0_2, out0, View.canon_unit_zero zeros2, View.ld_unit_zero zeros2, View.ld_unit_zero zeros2,
      k0_pay1]
    exact funext fun j => rowblock_dot rfl rfl (lin0_idx t) (win0_0.rect_emb_val t) (win0_1.rect_emb_val t) (win0_2.rect_emb_val t)
      (fun _ => rfl) (fun _ => rfl) _ j)
    fun i => have ⟨t, ht⟩ := rowblock_cover (M := 5000) N_0 (Nat.le_refl _) (fun t => (lin0_idx t).2.2) i
      ⟨t, flush0_2 t, (congrArg (i ∈ ·) (View.set_slice_whole main_v0 (win0_2.rect t))).mpr (Rect.mem_set_unit.mpr ht)⟩

end Cert.KernelIdeal.Hand
-- ==== Proof.Val.Lin1.lean ====
import proofs.«420580_j29025388986926_1_alg».proof.Proof.KI.Reg1
import proofs.«420580_j29025388986926_1_alg».proof.Proof.Gen.ReferenceIdeal
import proofs.«420580_j29025388986926_1_alg».proof.Proof.Val.LinKit

namespace Cert.KernelIdeal.Hand

open Cert.KernelIdeal.Gen Cert.Val Idealize.ShloMosaic Idealize.ShloMosaic.TcCoe Idealize.ShloMosaic.QrPanel.Panel

variable (V : (c : Dev nD) → (b : Ref sig .tc) → Buf (Elt Ideal) ((c : Thread nD τ).loc b))

theorem lin1_idx : ∀ t : Fin cfg1.N,
    AtRow t (win1_0.index t) ∧ AtRow 0 (win1_1.index t) ∧ AtRow t (win1_2.index t) :=
  (by decide +kernel : ∀ t : Fin grid1.N, _)

/-- Each grid point's output block is that row block of the product, and the ten blocks tile the rows. -/
theorem lin1_final (c : Dev nD) : (dat1 (F := Ideal) V c).arrAt 2 cfg1.N
    = Host.dotGeneral (F := Ideal) (φ₁ := .f32) (φ₂ := .f32) Cert.ReferenceIdeal.dot_S50000x64_S64x128_S50000x128_1_0_0_1_n_n none (V c main_arg0) (V c main_arg3) :=
  (dat1 (F := Ideal) V c).arrAt_eq_of_cover 2 _ (fun t _ => by
    rw [Pipeline.Dat.flushed, after1_2, out1, View.canon_unit_zero zeros2, View.ld_unit_zero zeros2, View.ld_unit_zero zeros2,
      k1_pay1]
    exact funext fun j => rowblock_dot rfl rfl (lin1_idx t) (win1_0.rect_emb_val t) (win1_1.rect_emb_val t) (win1_2.rect_emb_val t)
      (fun _ => rfl) (fun _ => rfl) _ j)
    fun i => have ⟨t, ht⟩ := rowblock_cover (M := 5000) N_1 (Nat.le_refl _) (fun t => (lin1_idx t).2.2) i
      ⟨t, flush1_2 t, (congrArg (i ∈ ·) (View.set_slice_whole main_v1 (win1_2.rect t))).mpr (Rect.mem_set_unit.mpr ht)⟩

end Cert.KernelIdeal.Hand
-- ==== Proof.Val.Lin3.lean ====
import proofs.«420580_j29025388986926_1_alg».proof.Proof.KI.Reg3
import proofs.«420580_j29025388986926_1_alg».proof.Proof.Gen.ReferenceIdeal
import proofs.«420580_j29025388986926_1_alg».proof.Proof.Val.LinKit

namespace Cert.KernelIdeal.Hand

open Cert.KernelIdeal.Gen Cert.Val Idealize.ShloMosaic Idealize.ShloMosaic.TcCoe Idealize.ShloMosaic.QrPanel.Panel

variable (V : (c : Dev nD) → (b : Ref sig .tc) → Buf (Elt Ideal) ((c : Thread nD τ).loc b))

theorem lin3_idx : ∀ t : Fin cfg3.N,
    AtRow t (win3_0.index t) ∧ AtRow 0 (win3_1.index t) ∧ AtRow t (win3_2.index t) :=
  (by decide +kernel : ∀ t : Fin grid3.N, _)

/-- Each grid point's output block is that row block of the product, and the ten blocks tile the rows. -/
theorem lin3_final (c : Dev nD) : (dat3 (F := Ideal) V c).arrAt 2 cfg3.N
    = Host.dotGeneral (F := Ideal) (φ₁ := .f32) (φ₂ := .f32) Cert.ReferenceIdeal.dot_S50000x128_S128x128_S50000x128_1_0_0_1_n_n none (V c main_v102) (V c main_arg5) :=
  (dat3 (F := Ideal) V c).arrAt_eq_of_cover 2 _ (fun t _ => by
    rw [Pipeline.Dat.flushed, after3_2, out3, View.canon_unit_zero zeros2, View.ld_unit_zero zeros2, View.ld_unit_zero zeros2,
      k3_pay1, shapeCast_self]
    exact funext fun j => rowblock_dot rfl rfl (lin3_idx t) (win3_0.rect_emb_val t) (win3_1.rect_emb_val t) (win3_2.rect_emb_val t)
      (fun _ => rfl) (fun _ => rfl) _ j)
    fun i => have ⟨t, ht⟩ := rowblock_cover (M := 5000) N_3 (Nat.le_refl _) (fun t => (lin3_idx t).2.2) i
      ⟨t, flush3_2 t, (congrArg (i ∈ ·) (View.set_slice_whole main_v103 (win3_2.rect t))).mpr (Rect.mem_set_unit.mpr ht)⟩

end Cert.KernelIdeal.Hand
-- ==== Proof.Val.Lin4.lean ====
import proofs.«420580_j29025388986926_1_alg».proof.Proof.KI.Reg4
import proofs.«420580_j29025388986926_1_alg».proof.Proof.Gen.ReferenceIdeal
import proofs.«420580_j29025388986926_1_alg».proof.Proof.Val.LinKit

namespace Cert.KernelIdeal.Hand

open Cert.KernelIdeal.Gen Cert.Val Idealize.ShloMosaic Idealize.ShloMosaic.TcCoe Idealize.ShloMosaic.QrPanel.Panel

variable (V : (c : Dev nD) → (b : Ref sig .tc) → Buf (Elt Ideal) ((c : Thread nD τ).loc b))

theorem lin4_idx : ∀ t : Fin cfg4.N,
    AtRow t (win4_0.index t) ∧ AtRow 0 (win4_1.index t) ∧ AtRow t (win4_2.index t) :=
  (by decide +kernel : ∀ t : Fin grid4.N, _)

/-- Each grid point's output block is that row block of the product, and the ten blocks tile the rows. -/
theorem lin4_final (c : Dev nD) : (dat4 (F := Ideal) V c).arrAt 2 cfg4.N
    = Host.dotGeneral (F := Ideal) (φ₁ := .f32) (φ₂ := .f32) Cert.ReferenceIdeal.dot_S50000x128_S128x128_S50000x128_1_0_0_1_n_n none (V c main_v102) (V c main_arg7) :=
  (dat4 (F := Ideal) V c).arrAt_eq_of_cover 2 _ (fun t _ => by
    rw [Pipeline.Dat.flushed, after4_2, out4, View.canon_unit_zero zeros2, View.ld_unit_zero zeros2, View.ld_unit_zero zeros2,
      k4_pay1, shapeCast_self]
    exact funext fun j => rowblock_dot rfl rfl (lin4_idx t) (win4_0.rect_emb_val t) (win4_1.rect_emb_val t) (win4_2.rect_emb_val t)
      (fun _ => rfl) (fun _ => rfl) _ j)
    fun i => have ⟨t, ht⟩ := rowblock_cover (M := 5000) N_4 (Nat.le_refl _) (fun t => (lin4_idx t).2.2) i
      ⟨t, flush4_2 t, (congrArg (i ∈ ·) (View.set_slice_whole main_v104 (win4_2.rect t))).mpr (Rect.mem_set_unit.mpr ht)⟩

end Cert.KernelIdeal.Hand
-- ==== Proof.Val.Spec.lean ====
import Idealize.ShloMosaic.PureOps.Ideal
import Idealize.ShloMosaic.Lib.ValueIdx

noncomputable section

namespace Cert.Val

open Idealize.ShloMosaic Idealize.ShloMosaic.ValueIdx

def combSpec (ap ar : (⟨2, ![50000, 128]⟩ : Shape).Idx → EReal) (b1 b2 : (⟨2, ![1, 128]⟩ : Shape).Idx → EReal) :
    (⟨2, ![50000, 128]⟩ : Shape).Idx → EReal :=
  fun i => max (((ap i + b1 (ix2 0 (i 1))) + ar i) + b2 (ix2 0 (i 1))) 0

def poolSpec (oh : (⟨2, ![50000, 64]⟩ : Shape).Idx → EReal) (h : (⟨2, ![50000, 128]⟩ : Shape).Idx → EReal) :
    (⟨2, ![64, 128]⟩ : Shape).Idx → EReal :=
  fun i => ∑ n : Fin 50000, oh (ix2 n (i 0)) * h (ix2 n (i 1))

def headSpec (p : (⟨2, ![64, 128]⟩ : Shape).Idx → EReal) (w1 : (⟨2, ![128, 128]⟩ : Shape).Idx → EReal)
    (b1 : (⟨2, ![1, 128]⟩ : Shape).Idx → EReal) (w2 : (⟨2, ![128, 1]⟩ : Shape).Idx → EReal)
    (b2 : (⟨2, ![1, 1]⟩ : Shape).Idx → EReal) : (⟨2, ![64, 1]⟩ : Shape).Idx → EReal :=
  fun i => (∑ k : Fin 128, max ((∑ j : Fin 128, p (ix2 (i 0) j) * w1 (ix2 j k)) + b1 (ix2 0 k)) 0 * w2 (ix2 k (i 1)))
    + b2 (ix2 0 0)

end Cert.Val

end
-- ==== Proof.Val.Comb2.lean ====
import proofs.«420580_j29025388986926_1_alg».proof.Proof.KI.Reg2
import proofs.«420580_j29025388986926_1_alg».proof.Proof.Val.Spec
import proofs.«420580_j29025388986926_1_alg».proof.Proof.Val.LinKit

namespace Cert.KernelIdeal.Hand

open Cert.KernelIdeal.Gen Cert.Val Idealize.ShloMosaic Idealize.ShloMosaic.TcCoe Idealize.ShloMosaic.QrPanel.Panel

variable (V : (c : Dev nD) → (b : Ref sig .tc) → Buf (Elt Ideal) ((c : Thread nD τ).loc b))

theorem comb2_idx : ∀ t : Fin cfg2.N, AtRow t (win2_0.index t) ∧ AtRow 0 (win2_1.index t)
    ∧ AtRow t (win2_2.index t) ∧ AtRow 0 (win2_3.index t) ∧ AtRow t (win2_4.index t) :=
  (by decide +kernel : ∀ t : Fin grid2.N, _)

/-- Each grid point's output block is that row block of the closed form, and the ten blocks tile the rows. -/
theorem comb2_final (c : Dev nD) : (dat2 (F := Ideal) V c).arrAt 4 cfg2.N
    = Cert.Val.combSpec (V c main_v50) (V c main_v99) (V c main_v100) (V c main_v101) :=
  (dat2 (F := Ideal) V c).arrAt_eq_of_cover 4 _ (fun t _ => by
    rw [Pipeline.Dat.flushed, after2_4, out2, View.canon_unit_zero zeros2, View.ld_unit_zero zeros2, View.ld_unit_zero zeros2,
      View.ld_unit_zero zeros2, View.ld_unit_zero zeros2, k2_pay1]
    exact funext fun j => rowblock_comb (comb2_idx t) (win2_0.rect_emb_val t) (win2_1.rect_emb_val t) (win2_2.rect_emb_val t)
      (win2_3.rect_emb_val t) (win2_4.rect_emb_val t) (fun _ => rfl) (fun _ => rfl) (fun _ => rfl) (fun _ => rfl) _ _ _ j)
    fun i => have ⟨t, ht⟩ := rowblock_cover (M := 5000) N_2 (Nat.le_refl _) (fun t => (comb2_idx t).2.2.2.2) i
      ⟨t, flush2_4 t, (congrArg (i ∈ ·) (View.set_slice_whole main_v102 (win2_4.rect t))).mpr (Rect.mem_set_unit.mpr ht)⟩

end Cert.KernelIdeal.Hand
-- ==== Proof.Val.Comb5.lean ====
import proofs.«420580_j29025388986926_1_alg».proof.Proof.KI.Reg5
import proofs.«420580_j29025388986926_1_alg».proof.Proof.Val.Spec
import proofs.«420580_j29025388986926_1_alg».proof.Proof.Val.LinKit

namespace Cert.KernelIdeal.Hand

open Cert.KernelIdeal.Gen Cert.Val Idealize.ShloMosaic Idealize.ShloMosaic.TcCoe Idealize.ShloMosaic.QrPanel.Panel

variable (V : (c : Dev nD) → (b : Ref sig .tc) → Buf (Elt Ideal) ((c : Thread nD τ).loc b))

theorem comb5_idx : ∀ t : Fin cfg5.N, AtRow t (win5_0.index t) ∧ AtRow 0 (win5_1.index t)
    ∧ AtRow t (win5_2.index t) ∧ AtRow 0 (win5_3.index t) ∧ AtRow t (win5_4.index t) :=
  (by decide +kernel : ∀ t : Fin grid5.N, _)

/-- Each grid point's output block is that row block of the closed form, and the ten blocks tile the rows. -/
theorem comb5_final (c : Dev nD) : (dat5 (F := Ideal) V c).arrAt 4 cfg5.N
    = Cert.Val.combSpec (V c main_v153) (V c main_v202) (V c main_v203) (V c main_v204) :=
  (dat5 (F := Ideal) V c).arrAt_eq_of_cover 4 _ (fun t _ => by
    rw [Pipeline.Dat.flushed, after5_4, out5, View.canon_unit_zero zeros2, View.ld_unit_zero zeros2, View.ld_unit_zero zeros2,
      View.ld_unit_zero zeros2, View.ld_unit_zero zeros2, k5_pay1]
    exact funext fun j => rowblock_comb (comb5_idx t) (win5_0.rect_emb_val t) (win5_1.rect_emb_val t) (win5_2.rect_emb_val t)
      (win5_3.rect_emb_val t) (win5_4.rect_emb_val t) (fun _ => rfl) (fun _ => rfl) (fun _ => rfl) (fun _ => rfl) _ _ _ j)
    fun i => have ⟨t, ht⟩ := rowblock_cover (M := 5000) N_5 (Nat.le_refl _) (fun t => (comb5_idx t).2.2.2.2) i
      ⟨t, flush5_4 t, (congrArg (i ∈ ·) (View.set_slice_whole main_v205 (win5_4.rect t))).mpr (Rect.mem_set_unit.mpr ht)⟩

end Cert.KernelIdeal.Hand
-- ==== Proof.Val.PoolKit.lean ====
import proofs.«420580_j29025388986926_1_alg».proof.Proof.Val.LinKit

namespace Cert.Val

open Idealize.ShloMosaic Idealize.ShloMosaic.ValueIdx Idealize.ShloMosaic.StackMember

variable {M K N : Nat} {φ₁ φ₂ : FTy}

/-- A plain product into the zero accumulator is, at each entry, the sum over the contracted axis: it is the host's product. -/
theorem plain_sum {d : DotDims ⟨2, ![M, K]⟩ ⟨2, ![K, N]⟩ ⟨2, ![M, N]⟩} (hd : d = .plain M K N)
    (a : FVec Ideal ⟨2, ![M, K]⟩ φ₁) (b : FVec Ideal ⟨2, ![K, N]⟩ φ₂) (g : Fin M) (k : Fin N) :
    matmul d none a b (constant _ .f32 0x00000000#32) (ix2 g k) = ∑ j : Fin K, a (ix2 g j) * b (ix2 j k) := by
  subst hd; rw [matmul_zero_eq_dotGeneral, dotGeneral_plain_apply]

end Cert.Val
-- ==== Proof.Val.Head7.lean ====
import proofs.«420580_j29025388986926_1_alg».proof.Proof.KI.Reg7
import proofs.«420580_j29025388986926_1_alg».proof.Proof.Val.Spec
import proofs.«420580_j29025388986926_1_alg».proof.Proof.Val.PoolKit
import Idealize.ShloMosaic.Lib.Pipeline.Value
import Idealize.ShloMosaic.PureOps.Ideal.Laws

noncomputable section

namespace Cert.KernelIdeal.Hand

open Cert.KernelIdeal Cert.KernelIdeal.Gen Cert.Val
open Idealize.ShloMosaic Idealize.ShloMosaic.TcCoe Idealize.ShloMosaic.ValueIdx Idealize.ShloMosaic.QrPanel.Panel

variable (V : (c : Dev nD) → (b : Ref sig .tc) → Buf (Elt Ideal) ((c : Thread nD τ).loc b))

/-- Both products are plain sums over the contracted axis, and the literal zero is the real 0. -/
theorem pay7_at (x : Vec Ideal S64x128 .f32) (y1 : Vec Ideal S128x128 .f32) (r1 : Vec Ideal S1x128 .f32)
    (y2 : Vec Ideal S128x1 .f32) (r2 : Vec Ideal S1x1 .f32) (g : Fin 64) (u : Fin 1) :
    k7_pay1 x y1 r1 y2 r2 (ix2 g u)
      = (∑ k : Fin 128, max ((∑ j : Fin 128, x (ix2 g j) * y1 (ix2 j k)) + r1 (ix2 0 k)) 0 * y2 (ix2 k u))
          + r2 (ix2 0 u) := by
  unfold k7_pay1
  simp only [shapeCast_self]
  rw [addf_apply, broadcastTo_1b_ab_apply]
  refine congrArg (· + r2 (ix2 0 u)) ((plain_sum rfl _ _ g u).trans (Finset.sum_congr rfl fun k _ => ?_))
  rw [truncf_apply, truncf_apply, maximumf_apply, addf_apply, broadcast_apply, broadcastTo_1b_ab_apply]
  refine congrArg (· * y2 (ix2 k u)) ?_
  show max (_ + r1 (ix2 0 k)) (Ideal.ofBits .f32 0x00000000#32) = _
  rw [Ideal.ofBits_zero_f32]
  exact congrArg (fun s => max (s + r1 (ix2 0 k)) 0) (plain_sum rfl _ _ g k)

/-- The body's one store covers the output buffer, and each load through a whole-buffer rectangle reads the buffer. -/
theorem out7_at (x : Vec Ideal S64x128 .f32) (y1 : Vec Ideal S128x128 .f32) (r1 : Vec Ideal S1x128 .f32)
    (y2 : Vec Ideal S128x1 .f32) (r2 : Vec Ideal S1x1 .f32) (g : Fin 64) (u : Fin 1) :
    out7 x y1 r1 y2 r2 (ix2 g u) = Cert.Val.headSpec x y1 r1 y2 r2 (ix2 g u) := by
  unfold out7
  rw [View.canon_unit_zero zeros2]
  simp only [View.ld_unit_zero (S := S64x128) zeros2, View.ld_unit_zero (S := S128x128) zeros2,
    View.ld_unit_zero (S := S1x128) zeros2, View.ld_unit_zero (S := S128x1) zeros2,
    View.ld_unit_zero (S := S1x1) zeros2]
  obtain rfl : u = 0 := Subsingleton.elim u 0
  exact pay7_at x y1 r1 y2 r2 g 0

theorem idx7 : ∀ t : Fin cfg7.N, AtRow 0 (win7_0.index t) ∧ AtRow 0 (win7_1.index t) ∧ AtRow 0 (win7_2.index t)
    ∧ AtRow 0 (win7_3.index t) ∧ AtRow 0 (win7_4.index t) ∧ AtRow 0 (win7_5.index t) :=
  (by decide +kernel : ∀ t : Fin grid7.N, _)

/-- Every window's one block is its whole array, so the point's output block is the closed form of the five arrays. -/
theorem flushed7_eq (c : Dev nD) (t : Fin cfg7.N) :
    (dat7 (F := Ideal) V c).flushed 5 t
      = ((cfg7.win 5).blk t).view.read (Elt Ideal)
          (Cert.Val.headSpec (V c main_v219) (V c main_arg9) (V c main_v220) (V c main_arg11) (V c main_v221)) := by
  obtain ⟨h0, h1, h2, h3, h4, h5⟩ := idx7 t
  show (cfg7.win 5).cut (grid7.coords t) ((dat7 (F := Ideal) V c).after 5 t) = _
  rw [after7_5,
    show (iblk7 V c 0 t : Vec Ideal S64x128 .f32) = V c main_v219 from funext fun y => congrArg (V c main_v219) (h0.emb_self (win7_0.rect_emb_val t) y),
    show (iblk7 V c 1 t : Vec Ideal S128x128 .f32) = V c main_arg9 from funext fun y => congrArg (V c main_arg9) (h1.emb_self (win7_1.rect_emb_val t) y),
    show (iblk7 V c 2 t : Vec Ideal S1x128 .f32) = V c main_v220 from funext fun y => congrArg (V c main_v220) (h2.emb_self (win7_2.rect_emb_val t) y),
    show (iblk7 V c 3 t : Vec Ideal S128x1 .f32) = V c main_arg11 from funext fun y => congrArg (V c main_arg11) (h3.emb_self (win7_3.rect_emb_val t) y),
    show (iblk7 V c 4 t : Vec Ideal S1x1 .f32) = V c main_v221 from funext fun y => congrArg (V c main_v221) (h4.emb_self (win7_4.rect_emb_val t) y)]
  refine funext fun (j : S64x1.Idx) => ?_
  obtain ⟨g, u, rfl⟩ : ∃ (g : Fin 64) (u : Fin 1), j = ix2 g u := ⟨j 0, j 1, eq_ix2 j⟩
  exact (out7_at _ _ _ _ _ g u).trans (congrArg _ (h5.emb_self (win7_5.rect_emb_val t) (ix2 g u)).symm)

theorem mem_blk7 (t : Fin cfg7.N) (i : S64x1.Idx) :
    i ∈ ((cfg7.win 5).blk t).view.set
      ↔ ∀ a : Fin 2, win7_5.index t a * S64x1.size a ≤ (i a).val
          ∧ (i a).val < win7_5.index t a * S64x1.size a + S64x1.size a := by
  show i ∈ ((View.whole main_v222).slice (win7_5.rect t)).set ↔ _
  rw [View.set_slice_whole, Rect.mem_set_unit]
  exact Iff.rfl

/-- The one point's block is the whole output array. -/
theorem tiled7 (i : S64x1.Idx) :
    ∃ t : Fin cfg7.N, (cfg7.win 5).flush t = true ∧ i ∈ ((cfg7.win 5).blk t).view.set := by
  obtain ⟨t, ht⟩ := rowblock_cover (M := 64) (N := 1) N_7 (Nat.le_refl _) (fun t => ⟨(idx7 t).2.2.2.2.2.1.trans (by have := t.isLt; have := N_7; omega), (idx7 t).2.2.2.2.2.2⟩) i
  exact ⟨t, flush7_5 t, (mem_blk7 t i).mpr ht⟩

theorem head7_final (c : Dev nD) : (dat7 (F := Ideal) V c).arrAt 5 cfg7.N
    = Cert.Val.headSpec (V c main_v219) (V c main_arg9) (V c main_v220) (V c main_arg11) (V c main_v221) :=
  (dat7 (F := Ideal) V c).arrAt_eq_of_cover 5
    (Cert.Val.headSpec (V c main_v219) (V c main_arg9) (V c main_v220) (V c main_arg11) (V c main_v221))
    (fun t _ => flushed7_eq V c t) tiled7

end Cert.KernelIdeal.Hand

end
-- ==== Proof.Val.Pool6.lean ====
import proofs.«420580_j29025388986926_1_alg».proof.Proof.KI.Reg6
import proofs.«420580_j29025388986926_1_alg».proof.Proof.Val.Spec
import proofs.«420580_j29025388986926_1_alg».proof.Proof.Val.PoolKit
import Idealize.ShloMosaic.Lib.Pipeline.Value
import Idealize.ShloMosaic.PureOps.Ideal.Laws
import Mathlib.Algebra.BigOperators.Fin

noncomputable section

namespace Cert.KernelIdeal.Hand

open Cert.KernelIdeal Cert.KernelIdeal.Gen Cert.Val
open Idealize.ShloMosaic Idealize.ShloMosaic.TcCoe Idealize.ShloMosaic.ValueIdx

theorem zero6_apply (i : S64x128.Idx) : zero6 (F := Ideal) i = 0 := by
  unfold zero6 k6_pay1
  simp only [shapeCast_self]
  exact Ideal.ofBits_zero_f32

/-- The product contracts the rows of both blocks: entry (g, d) gains the sum over the block's rows of the products in columns g and d. -/
theorem step6_apply (s : Vec Ideal S64x128 .f32) (x0 : Vec Ideal S5000x64 .f32) (x1 : Vec Ideal S5000x128 .f32)
    (i : S64x128.Idx) :
    step6 s x0 x1 i = s i + ∑ k : Fin 5000, x0 (ix2 k (i 0)) * x1 (ix2 k (i 1)) := by
  unfold step6 k6_pay2
  simp only [shapeCast_self]
  rw [addf_apply]
  simp only [matmul]
  rw [Ideal.matmul_constant_zero_apply, ← Equiv.sum_comp (contrEquiv1 dot_S5000x64_S5000x128_S64x128_0_0_1_1_n_n 5000 rfl rfl).symm]
  refine congrArg (s i + ·) (Finset.sum_congr rfl fun k _ => ?_)
  have hk := contrEquiv1_symm_val dot_S5000x64_S5000x128_S64x128_0_0_1_1_n_n 5000 rfl rfl k
  rw [truncf_apply, truncf_apply,
    show dot_S5000x64_S5000x128_S64x128_0_0_1_1_n_n.lhsIdx i ((contrEquiv1 dot_S5000x64_S5000x128_S64x128_0_0_1_1_n_n 5000 rfl rfl).symm k) = ix2 k (i 0) from
      Shape.idx_ext₂ ((dot_S5000x64_S5000x128_S64x128_0_0_1_1_n_n.lhsIdx_val_of_single rfl i _).trans hk) (by
        unfold DotDims.lhsIdx; rw [dif_neg (by decide), dif_pos (by decide)]; rfl),
    show dot_S5000x64_S5000x128_S64x128_0_0_1_1_n_n.rhsIdx i ((contrEquiv1 dot_S5000x64_S5000x128_S64x128_0_0_1_1_n_n 5000 rfl rfl).symm k) = ix2 k (i 1) from
      Shape.idx_ext₂ ((dot_S5000x64_S5000x128_S64x128_0_0_1_1_n_n.rhsIdx_val_of_single rfl i _).trans hk) (by
        unfold DotDims.rhsIdx; rw [dif_neg (by decide), dif_pos (by decide)]; rfl)]
  rfl

/-- The contraction's summand at entry `i` as a function of the node's number, zero past the last node. -/
def poolTerm (oh : (⟨2, ![50000, 64]⟩ : Shape).Idx → EReal) (h : (⟨2, ![50000, 128]⟩ : Shape).Idx → EReal)
    (i : S64x128.Idx) (r : ℕ) : EReal :=
  if hr : r < 50000 then oh (ix2 ⟨r, hr⟩ (i 0)) * h (ix2 ⟨r, hr⟩ (i 1)) else 0

/-- One point adds the summands of its 5000 nodes. -/
theorem step_sum (oh : (⟨2, ![50000, 64]⟩ : Shape).Idx → EReal) (h : (⟨2, ![50000, 128]⟩ : Shape).Idx → EReal)
    (n : ℕ) (hn : n < 10)
    (s : Vec Ideal S64x128 .f32) (x0 : Vec Ideal S5000x64 .f32) (x1 : Vec Ideal S5000x128 .f32)
    (hs : ∀ i : S64x128.Idx, s i = ∑ r ∈ Finset.range (n * 5000), poolTerm oh h i r)
    (h0 : ∀ (k : Fin 5000) (g : Fin 64), x0 (ix2 k g) = oh (ix2 ⟨n * 5000 + k.val, by have := k.isLt; omega⟩ g))
    (h1 : ∀ (k : Fin 5000) (d : Fin 128), x1 (ix2 k d) = h (ix2 ⟨n * 5000 + k.val, by have := k.isLt; omega⟩ d))
    (i : S64x128.Idx) :
    step6 s x0 x1 i = ∑ r ∈ Finset.range ((n + 1) * 5000), poolTerm oh h i r := by
  rw [step6_apply, hs i, Nat.succ_mul, Finset.sum_range_add, Finset.sum_range (fun k => poolTerm oh h i (n * 5000 + k))]
  refine congrArg (_ + ·) (Finset.sum_congr rfl fun k _ => ?_)
  show _ = poolTerm oh h i (n * 5000 + k.val)
  unfold poolTerm
  rw [dif_pos (by have := k.isLt; omega)]
  exact congrArg₂ (· * ·) (h0 k (i 0)) (h1 k (i 1))

theorem poolTerm_total (oh : (⟨2, ![50000, 64]⟩ : Shape).Idx → EReal) (h : (⟨2, ![50000, 128]⟩ : Shape).Idx → EReal)
    (i : S64x128.Idx) :
    ∑ r ∈ Finset.range 50000, poolTerm oh h i r = Cert.Val.poolSpec oh h i := by
  rw [Finset.sum_range]
  exact Finset.sum_congr rfl fun n _ => dif_pos n.isLt

variable (V : (c : Dev nD) → (b : Ref sig .tc) → Buf (Elt Ideal) ((c : Thread nD τ).loc b))

theorem idx6 : ∀ t : Fin cfg6.N, AtRow t.val (win6_0.index t) ∧ AtRow t.val (win6_1.index t) ∧ AtRow 0 (win6_2.index t) :=
  (by decide +kernel : ∀ t : Fin grid6.N, _)

theorem point_lt6 (t : Fin cfg6.N) : t.val < 10 := lt_of_lt_of_eq t.isLt N_6

theorem iblk6_0_apply (c : Dev nD) (t : Fin cfg6.N) (k : Fin 5000) (g : Fin 64) :
    iblk6 V c 0 t (ix2 k g)
      = V c main_v212 (ix2 ⟨t.val * 5000 + k.val, by have := point_lt6 t; have := k.isLt; omega⟩ g) :=
  have h := (idx6 t).1.emb (win6_0.rect_emb_val t) (ix2 k g)
  congrArg (V c main_v212) (Shape.idx_ext₂ h.1 h.2)

theorem iblk6_1_apply (c : Dev nD) (t : Fin cfg6.N) (k : Fin 5000) (d : Fin 128) :
    iblk6 V c 1 t (ix2 k d)
      = V c main_v205 (ix2 ⟨t.val * 5000 + k.val, by have := point_lt6 t; have := k.isLt; omega⟩ d) :=
  have h := (idx6 t).2.1.emb (win6_1.rect_emb_val t) (ix2 k d)
  congrArg (V c main_v205) (Shape.idx_ext₂ h.1 h.2)

/-- After point n the accumulator holds the sum over the nodes of the first n + 1 blocks. -/
theorem acc6_eq (c : Dev nD) : ∀ (n : ℕ) (hn : n < cfg6.N) (i : S64x128.Idx),
    acc6 V c n hn i = ∑ r ∈ Finset.range ((n + 1) * 5000), poolTerm (V c main_v212) (V c main_v205) i r
  | 0, hn, i => by
    rw [acc6_zero]
    exact step_sum (V c main_v212) (V c main_v205) 0 (by omega) _ _ _
      (fun j => by rw [zero6_apply]; simp)
      (fun k g => iblk6_0_apply V c ⟨0, hn⟩ k g)
      (fun k d => iblk6_1_apply V c ⟨0, hn⟩ k d) i
  | n + 1, hn, i => by
    rw [acc6_succ]
    exact step_sum (V c main_v212) (V c main_v205) (n + 1) (lt_of_lt_of_eq hn N_6) _ _ _
      (fun j => acc6_eq c n (Nat.lt_of_succ_lt hn) j)
      (fun k g => iblk6_0_apply V c ⟨n + 1, hn⟩ k g)
      (fun k d => iblk6_1_apply V c ⟨n + 1, hn⟩ k d) i

theorem mem_blk6_2 (t : Fin cfg6.N) (i : S64x128.Idx) :
    i ∈ ((cfg6.win 2).blk t).view.set ↔ ∀ a : Fin 2, win6_2.index t a * S64x128.size a ≤ (i a).val ∧ (i a).val < win6_2.index t a * S64x128.size a + S64x128.size a := by
  show i ∈ ((View.whole main_v214).slice (win6_2.rect t)).set ↔ _
  rw [View.set_slice_whole, Rect.mem_set_unit]
  exact Iff.rfl

theorem cut6_2 (t : Fin cfg6.N) (X : Vec Ideal S64x128 .f32) (j : S64x128.Idx) :
    (cfg6.win 2).cut (grid6.coords t) X j = X j := rfl

theorem read_blk6_2 (t : Fin cfg6.N) (G : S64x128.Idx → EReal) (j : S64x128.Idx) :
    ((cfg6.win 2).blk t).view.read (Elt Ideal) G j = G j :=
  congrArg G ((idx6 t).2.2.emb_self (win6_2.rect_emb_val t) j)

/-- The last point's output block is the whole accumulator, which by then is the whole contraction, and the output's one block is its array. -/
theorem flushed6_eq (c : Dev nD) (t : Fin cfg6.N) (hf : (cfg6.win 2).flush t = true) :
    (dat6 (F := Ideal) V c).flushed 2 t
      = ((cfg6.win 2).blk t).view.read (Elt Ideal) (Cert.Val.poolSpec (V c main_v212) (V c main_v205)) := by
  have h9 : t.val = 9 := by have := (flush6_2 t).mp hf; have := point_lt6 t; omega
  show (cfg6.win 2).cut (grid6.coords t) ((dat6 V c).after 2 t) = _
  rw [after6_2]
  funext j
  refine ((cut6_2 t _ j).trans ?_).trans (read_blk6_2 t _ j).symm
  rw [acc6_eq V c t.val t.isLt j, h9, poolTerm_total]

theorem pool6_final (c : Dev nD) :
    (dat6 (F := Ideal) V c).arrAt 2 cfg6.N = Cert.Val.poolSpec (V c main_v212) (V c main_v205) := by
  refine (dat6 V c).arrAt_eq_of_cover 2 _ (fun t hf => flushed6_eq V c t hf) (fun i => ?_)
  have h9 : 9 < cfg6.N := lt_of_lt_of_eq (by decide) N_6.symm
  refine ⟨⟨9, h9⟩, (flush6_2 ⟨9, h9⟩).mpr rfl, ?_⟩
  obtain ⟨-, -, e4, e5⟩ := idx6 ⟨9, h9⟩
  rw [mem_blk6_2]
  intro a
  match a with
  | ⟨0, _⟩ => show win6_2.index ⟨9, h9⟩ (0 : Fin 2) * 64 ≤ (i 0).val ∧ (i 0).val < win6_2.index ⟨9, h9⟩ (0 : Fin 2) * 64 + 64; have := idx2_lt0 i; omega
  | ⟨1, _⟩ => show win6_2.index ⟨9, h9⟩ (1 : Fin 2) * 128 ≤ (i 1).val ∧ (i 1).val < win6_2.index ⟨9, h9⟩ (1 : Fin 2) * 128 + 128; have := idx2_lt1 i; omega

end Cert.KernelIdeal.Hand

end
-- ==== Proof.Val.HostKit.lean ====
import Idealize.ShloMosaic.Lib.StackMember
import Idealize.ShloMosaic.Lib.StableHlo.Predicate
import Idealize.ShloMosaic.Lib.ValueIdxRank1
import Idealize.ShloMosaic.Lib.ValueLayout
import Idealize.ShloMosaic.Lib.IdealHost

namespace Cert.Val

open Idealize.ShloMosaic Idealize.ShloMosaic.ValueIdx Idealize.ShloMosaic.StackMember Idealize.ShloMosaic.StableHlo.Predicate

variable {α : Type} {n m : Nat}

/-- The two spellings of an index by its coordinates agree, at rank 2, at rank 1 and for a one-column rectangle. -/
theorem ij_eq_ix2 (p : Fin n) (q : Fin m) : ij p q = ix2 p q := by
  funext a; match a with | ⟨0, _⟩ => rfl | ⟨1, _⟩ => rfl
theorem ofFin_eq_ix1 (p : Fin n) : Shape.Idx.ofFin p = ix1 p := by
  funext a; match a with | ⟨0, _⟩ => exact Fin.ext rfl
theorem ixP_eq_ix2 (p : Fin n) : ixP p = ix2 p (0 : Fin 1) := by
  funext a; match a with | ⟨0, _⟩ => rfl | ⟨1, _⟩ => rfl

/-- A vector laid along a row and that row repeated down the rows reads the vector at the column. -/
theorem bcast_vec_rows_apply (b : (⟨1, ![m]⟩ : Shape).Idx → α)
    (h1 : (⟨1, ![m]⟩ : Shape).BroadcastsInDim ⟨2, ![1, m]⟩ (![1] : Fin 1 → Fin 2))
    (h2 : (⟨2, ![1, m]⟩ : Shape).BroadcastsInDim ⟨2, ![n, m]⟩ (![0, 1] : Fin 2 → Fin 2))
    (i : (⟨2, ![n, m]⟩ : Shape).Idx) :
    broadcastInDim ⟨2, ![n, m]⟩ ![0, 1] h2 (broadcastInDim ⟨2, ![1, m]⟩ ![1] h1 b) i = b (ix1 (i 1)) :=
  (congrArg _ (ij_eta i).symm).trans ((bcast_cols h1 h2 b (i 0) (i 1)).trans (congrArg b (ofFin_eq_ix1 _)))

/-- The zero word, and the word of one, repeated over any shape are the reals 0 and 1 everywhere. -/
theorem zeros_apply {t : Shape} (hb : (⟨0, ![]⟩ : Shape).BroadcastsInDim t ![]) (j : t.Idx) :
    broadcastInDim t ![] hb (constant (F := Ideal) ⟨0, ![]⟩ .f32 0x00000000#32) j = (0 : EReal) := by
  rw [bcast_scalar hb (by decide)]; exact Ideal.ofBits_zero_f32
theorem ones_apply {t : Shape} (hb : (⟨0, ![]⟩ : Shape).BroadcastsInDim t ![]) (j : t.Idx) :
    broadcastInDim t ![] hb (constant (F := Ideal) ⟨0, ![]⟩ .f32 0x3F800000#32) j = (1 : EReal) := by
  rw [bcast_scalar hb (by decide)]; exact Ideal.ofBits_one_f32

/-- A product with one contracted axis, read at an entry, is the sum over that axis. -/
theorem dot_plain_apply {M K N : Nat} {d : DotDims ⟨2, ![M, K]⟩ ⟨2, ![K, N]⟩ ⟨2, ![M, N]⟩} (hd : d = .plain M K N)
    (x : FVec Ideal ⟨2, ![M, K]⟩ .f32) (y : FVec Ideal ⟨2, ![K, N]⟩ .f32) (i : (⟨2, ![M, N]⟩ : Shape).Idx) :
    Host.dotGeneral d none x y i = ∑ k : Fin K, x (ix2 (i 0) k) * y (ix2 k (i 1)) := by
  subst hd
  obtain ⟨a, b, rfl⟩ : ∃ a b, i = ix2 a b := ⟨i 0, i 1, eq_ix2 i⟩
  exact dotGeneral_plain_apply none x y a b

/-- A sum over the rank-1 indices is the sum over the coordinate. -/
theorem sum_ix1 {M : Type*} [AddCommMonoid M] (f : (⟨1, ![n]⟩ : Shape).Idx → M) : ∑ j, f j = ∑ a : Fin n, f (ix1 a) :=
  (Equiv.sum_comp idxEquiv1.symm f).symm

end Cert.Val
-- ==== Proof.Val.PoolMath.lean ====
import proofs.«420580_j29025388986926_1_alg».proof.Proof.Gen.KernelIdeal
import proofs.«420580_j29025388986926_1_alg».proof.Proof.Gen.ReferenceIdeal
import proofs.«420580_j29025388986926_1_alg».proof.Proof.Val.HostKit

noncomputable section

namespace Cert.Val

open Idealize.ShloMosaic Idealize.ShloMosaic.ValueIdx

def oneHot (batch : (⟨Cert.KernelIdeal.S50000, .i32⟩ : BufTy).Contents (Elt Ideal)) :
    (⟨Cert.KernelIdeal.S50000x64, .f32⟩ : BufTy).Contents (Elt Ideal) :=
  uitofp (F := Ideal) .f32 (cmpi .eq
    (broadcastInDim Cert.KernelIdeal.S50000x64 ![0, 1] Cert.KernelIdeal.Facts₀.bcast_S50000x1_S50000x64_0_1
      (broadcastInDim Cert.KernelIdeal.S50000x1 ![0] Cert.KernelIdeal.Facts₀.bcast_S50000_S50000x1_0 batch))
    (broadcastInDim Cert.KernelIdeal.S50000x64 ![0, 1] Cert.KernelIdeal.Facts₀.bcast_S1x64_S50000x64_0_1
      (broadcastInDim Cert.KernelIdeal.S1x64 ![1] Cert.KernelIdeal.Facts₀.bcast_S64_S1x64_1
        (iotaInDim Cert.KernelIdeal.S64 32 0))))

namespace PoolMath

open Idealize.ShloMosaic.StableHlo.Predicate in
theorem oneHot_apply (batch : (⟨Cert.KernelIdeal.S50000, .i32⟩ : BufTy).Contents (Elt Ideal)) (n : Fin 50000) (g : Fin 64) :
    oneHot batch (ix2 n g) = if (batch (ix1 n)).toInt = (g.val : Int) then (1 : EReal) else 0 := by
  have hg : (BitVec.ofNat 32 g.val).toInt = (g.val : Int) := toInt_ofNat_small _ (by have := g.isLt; omega)
  unfold oneHot
  show FloatOps.uitofp (F := Ideal) .f32 (IntOp.cmpi .eq _ _) = _
  rw [← ij_eq_ix2, bcast_rows, bcast_cols, iota_apply, ofFin_eq_ix1]
  by_cases hb : batch (ix1 n) = BitVec.ofNat 32 g.val
  · rw [cmpi_eq_iff.mpr hb, if_pos (by rw [hb]; exact hg)]
    show (((1#1 : BitVec 1).toNat : ℝ) : EReal) = 1
    simp
  · rw [eq_zero_of_ne_one (fun h => hb (cmpi_eq_iff.mp h)), if_neg (fun h => hb (BitVec.eq_of_toInt_eq (h.trans hg.symm)))]
    show (((0#1 : BitVec 1).toNat : ℝ) : EReal) = 0
    simp

/-- An update lands on `i` exactly when start plus window coordinate is `i` on every axis. -/
theorem result_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  constructor
  · intro h a
    split at h
    · next hc =>
      have h0 := congrArg Fin.val (congrFun (Option.some.inj h) a)
      have := (hc a).1
      dsimp only at h0
      omega
    · exact absurd h (by simp)
  · intro h
    have hc : ∀ a, 0 ≤ d.start j idx a + d.window j a ∧ d.start j idx a + d.window j a < s.size a := fun a => by
      rw [h a]; exact ⟨by omega, by have := (i a).isLt; omega⟩
    rw [dif_pos hc]
    exact congrArg some (funext fun a => Fin.ext (by simp only [h a]; omega))

abbrev dCnt := Cert.ReferenceIdeal.scatter_S64_S50000x1_S50000_n_0_0_1
abbrev dSum := Cert.ReferenceIdeal.scatter_S64x128_S50000x1_S50000x128_1_0_0_1

theorem dCnt_start (idx : IVec Cert.ReferenceIdeal.S50000x1 32) (j : Cert.ReferenceIdeal.S50000.Idx) :
    dCnt.start j idx 0 = (idx (ix2 (j 0) 0)).toInt := by
  unfold ScatterDims.start
  rw [dif_pos (show (0 : Fin 1) ∈ dCnt.scatterDimsToOperandDims from List.mem_singleton.mpr rfl)]
  congr 2
  funext b
  match b with
  | ⟨0, _⟩ => rfl
  | ⟨1, _⟩ => rfl

theorem dCnt_window (j : Cert.ReferenceIdeal.S50000.Idx) : dCnt.window j 0 = 0 := by
  unfold ScatterDims.window
  rw [dif_neg]
  decide

theorem dCnt_result_iff (idx : IVec Cert.ReferenceIdeal.S50000x1 32) (j : Cert.ReferenceIdeal.S50000.Idx)
    (i : Cert.ReferenceIdeal.S64.Idx) :
    dCnt.resultIdx? j idx = some i ↔ (idx (ix2 (j 0) 0)).toInt = ((i 0).val : Int) :=
  (result_iff dCnt j idx i).trans (Fin.forall_fin_one.trans (by rw [dCnt_start, dCnt_window]; simp))

theorem dSum_start0 (idx : IVec Cert.ReferenceIdeal.S50000x1 32) (j : Cert.ReferenceIdeal.S50000x128.Idx) :
    dSum.start j idx 0 = (idx (ix2 (j 0) 0)).toInt := by
  unfold ScatterDims.start
  rw [dif_pos (show (0 : Fin 2) ∈ dSum.scatterDimsToOperandDims from List.mem_singleton.mpr rfl)]
  congr 2
  funext b
  match b with
  | ⟨0, _⟩ => rfl
  | ⟨1, _⟩ => rfl

theorem dSum_start1 (idx : IVec Cert.ReferenceIdeal.S50000x1 32) (j : Cert.ReferenceIdeal.S50000x128.Idx) :
    dSum.start j idx 1 = 0 := by
  unfold ScatterDims.start
  rw [dif_neg]
  decide

theorem dSum_window0 (j : Cert.ReferenceIdeal.S50000x128.Idx) : dSum.window j 0 = 0 := by
  unfold ScatterDims.window
  rw [dif_neg]
  decide

theorem dSum_window1 (j : Cert.ReferenceIdeal.S50000x128.Idx) : dSum.window j 1 = (j 1).val := by
  unfold ScatterDims.window
  rw [dif_pos (by decide)]
  rfl

theorem dSum_result_iff (idx : IVec Cert.ReferenceIdeal.S50000x1 32) (j : Cert.ReferenceIdeal.S50000x128.Idx)
    (i : Cert.ReferenceIdeal.S64x128.Idx) :
    dSum.resultIdx? j idx = some i ↔ (idx (ix2 (j 0) 0)).toInt = ((i 0).val : Int) ∧ j 1 = i 1 :=
  (result_iff dSum j idx i).trans (Fin.forall_fin_two.trans (by
    rw [dSum_start0, dSum_window0, dSum_start1, dSum_window1]; simp
    exact fun _ => Fin.val_inj))

open Idealize.ShloMosaic.StableHlo.Predicate in
theorem idxCol_apply (batch : (⟨Cert.KernelIdeal.S50000, .i32⟩ : BufTy).Contents (Elt Ideal)) (n : Fin 50000) :
    broadcastInDim Cert.ReferenceIdeal.S50000x1 ![0] Cert.ReferenceIdeal.Facts₀.bcast_S50000_S50000x1_0 batch (ix2 n 0)
      = batch (ix1 n) := by
  rw [← ixP_eq_ix2, ← ofFin_eq_ix1]; exact bcast_col1 _ batch n

end PoolMath

open PoolMath

/-- Column `g` of the membership matrix has a one for each node of graph `g`, which is what the scatter of ones counts. -/
theorem counts_eq (batch : (⟨Cert.KernelIdeal.S50000, .i32⟩ : BufTy).Contents (Elt Ideal)) :
    Host.reduceAdd (F := Ideal) (oneHot batch) (constant Cert.KernelIdeal.S_ .f32 0x00000000#32)
        Cert.KernelIdeal.Facts₀.reducesTo_S50000x64_S64_d0 Cert.KernelIdeal.Facts₀.h_S_
      = Host.scatterAdd (F := Ideal) Cert.ReferenceIdeal.scatter_S64_S50000x1_S50000_n_0_0_1
          (broadcastInDim Cert.ReferenceIdeal.S64 ![] Cert.ReferenceIdeal.Facts₀.bcast_S_S64
            (constant Cert.ReferenceIdeal.S_ .f32 0x00000000#32))
          (broadcastInDim Cert.ReferenceIdeal.S50000x1 ![0] Cert.ReferenceIdeal.Facts₀.bcast_S50000_S50000x1_0 batch)
          (broadcastInDim Cert.ReferenceIdeal.S50000 ![] Cert.ReferenceIdeal.Facts₀.bcast_S_S50000
            (constant Cert.ReferenceIdeal.S_ .f32 0x3F800000#32)) := by
  funext i
  trans ∑ n : Fin 50000, oneHot batch (ix2 n (i 0))
  · show Ideal.hostReduceAdd Cert.KernelIdeal.Facts₀.reducesTo_S50000x64_S64_d0 (oneHot batch)
        (Ideal.ofBits .f32 0x00000000#32) i = _
    unfold Ideal.hostReduceAdd
    rw [Ideal.ofBits_zero_f32, zero_add, Finset.sum_filter, sum_idx2]
    refine Finset.sum_congr rfl fun n _ => ?_
    have hd : ∀ g : Fin 64, (Cert.KernelIdeal.Facts₀.reducesTo_S50000x64_S64_d0.drop (ix2 n g) = i) ↔ g = i 0 := by
      intro g
      have hv : (Cert.KernelIdeal.Facts₀.reducesTo_S50000x64_S64_d0.drop (ix2 n g) 0 : Nat) = (ix2 n g) 1 :=
        Shape.ReducesTo.drop_apply_val_of_eq _ _ 0 1
      constructor
      · intro h; rw [h] at hv; exact (Fin.ext hv).symm
      · intro h
        funext a
        obtain rfl : a = 0 := Subsingleton.elim _ _
        exact Fin.ext (by rw [hv, h])
    refine (Finset.sum_eq_single (i 0 : Fin 64) ?_ ?_).trans (if_pos ((hd _).mpr rfl))
    · intro g _ hne; exact if_neg (fun hh => hne ((hd g).mp hh))
    · intro hh; exact absurd (Finset.mem_univ _) hh
  · symm
    show Ideal.hostScatterAdd dCnt _ _ _ i = _
    unfold Ideal.hostScatterAdd
    rw [zeros_apply, zero_add, Finset.sum_filter, sum_ix1]
    refine Finset.sum_congr rfl fun n _ => ?_
    rw [ones_apply, oneHot_apply batch n (i 0)]
    exact if_congr ((dCnt_result_iff _ _ _).trans
      (Iff.of_eq (congrArg (fun x => x.toInt = ((i 0).val : Int)) (idxCol_apply batch n)))) rfl rfl

/-- A membership entry is one or zero, so the contraction keeps exactly the rows the scatter adds onto graph `g`. -/
theorem poolSum_eq (batch : (⟨Cert.KernelIdeal.S50000, .i32⟩ : BufTy).Contents (Elt Ideal))
    (h : Cert.KernelIdeal.S50000x128.Idx → EReal) :
    (fun i : Cert.KernelIdeal.S64x128.Idx => ∑ n : Fin 50000, oneHot batch (ix2 n (i 0)) * h (ix2 n (i 1)))
      = Host.scatterAdd (F := Ideal) Cert.ReferenceIdeal.scatter_S64x128_S50000x1_S50000x128_1_0_0_1
          (broadcastInDim Cert.ReferenceIdeal.S64x128 ![] Cert.ReferenceIdeal.Facts₀.bcast_S_S64x128
            (constant Cert.ReferenceIdeal.S_ .f32 0x00000000#32))
          (broadcastInDim Cert.ReferenceIdeal.S50000x1 ![0] Cert.ReferenceIdeal.Facts₀.bcast_S50000_S50000x1_0 batch) h := by
  funext i
  show (∑ n : Fin 50000, oneHot batch (ix2 n (i 0)) * h (ix2 n (i 1))) = Ideal.hostScatterAdd dSum _ _ h i
  unfold Ideal.hostScatterAdd
  rw [zeros_apply, zero_add, Finset.sum_filter, sum_idx2]
  refine Finset.sum_congr rfl fun n _ => ?_
  have key : ∀ c : Fin 128,
      dSum.resultIdx? (ix2 n c : Cert.ReferenceIdeal.S50000x128.Idx)
          (broadcastInDim Cert.ReferenceIdeal.S50000x1 ![0] Cert.ReferenceIdeal.Facts₀.bcast_S50000_S50000x1_0 batch) = some i
        ↔ ((batch (ix1 n)).toInt = ((i 0).val : Int) ∧ c = i 1) := fun c => (dSum_result_iff _ _ _).trans
    (Iff.of_eq (congrArg (fun x => x.toInt = ((i 0).val : Int) ∧ c = i 1) (idxCol_apply batch n)))
  rw [oneHot_apply batch n (i 0)]
  by_cases hb : (batch (ix1 n)).toInt = ((i 0).val : Int)
  · rw [if_pos hb, one_mul]
    symm
    refine (Finset.sum_eq_single (i 1 : Fin 128) ?_ ?_).trans (if_pos ((key _).mpr ⟨hb, rfl⟩))
    · intro c _ hne; exact if_neg (fun hh => hne ((key c).mp hh).2)
    · intro hh; exact absurd (Finset.mem_univ _) hh
  · rw [if_neg hb, zero_mul]
    exact (Finset.sum_eq_zero fun c _ => if_neg (fun hh => hb ((key c).mp hh).1)).symm

end Cert.Val

end
-- ==== Proof.Val.LayerMath.lean ====
import proofs.«420580_j29025388986926_1_alg».proof.Proof.Gen.KernelIdeal
import proofs.«420580_j29025388986926_1_alg».proof.Proof.Gen.ReferenceIdeal
import proofs.«420580_j29025388986926_1_alg».proof.Proof.Val.Spec
import proofs.«420580_j29025388986926_1_alg».proof.Proof.Val.HostKit

namespace Cert.Val

open Idealize.ShloMosaic Idealize.ShloMosaic.ValueIdx

/-- Both sides read the bias vectors at the column; the two sums differ by one reassociation. -/
theorem comb_eq (ap ar : (⟨Cert.ReferenceIdeal.S50000x128, .f32⟩ : BufTy).Contents (Elt Ideal))
    (b1 b2 : (⟨Cert.ReferenceIdeal.S128, .f32⟩ : BufTy).Contents (Elt Ideal)) :
    combSpec ap ar (shapeCast Cert.KernelIdeal.S1x128 b1 Cert.KernelIdeal.Facts₀.shapeCasts_S128_S1x128)
        (shapeCast Cert.KernelIdeal.S1x128 b2 Cert.KernelIdeal.Facts₀.shapeCasts_S128_S1x128)
      = maximumf (F := Ideal)
          (addf (addf ap (broadcastInDim Cert.ReferenceIdeal.S50000x128 ![0, 1] Cert.ReferenceIdeal.Facts₀.bcast_S1x128_S50000x128_0_1
                    (broadcastInDim Cert.ReferenceIdeal.S1x128 ![1] Cert.ReferenceIdeal.Facts₀.bcast_S128_S1x128_1 b1)))
                (addf ar (broadcastInDim Cert.ReferenceIdeal.S50000x128 ![0, 1] Cert.ReferenceIdeal.Facts₀.bcast_S1x128_S50000x128_0_1
                    (broadcastInDim Cert.ReferenceIdeal.S1x128 ![1] Cert.ReferenceIdeal.Facts₀.bcast_S128_S1x128_1 b2))))
          (broadcastInDim Cert.ReferenceIdeal.S50000x128 ![] Cert.ReferenceIdeal.Facts₀.bcast_S_S50000x128
            (constant Cert.ReferenceIdeal.S_ .f32 0x00000000#32)) := by
  funext i
  rw [maximumf_apply, addf_apply, addf_apply, addf_apply, zeros_apply, bcast_vec_rows_apply, bcast_vec_rows_apply, ← add_assoc]
  show max (((ap i + _) + ar i) + _) 0 = _
  rw [shapeCast_a_1a_apply b1 _ 0 (i 1), shapeCast_a_1a_apply b2 _ 0 (i 1)]

/-- Both sides are the same two sums of products, the bias vectors read at the column and the zero word the real 0. -/
theorem head_eq (p : (⟨Cert.ReferenceIdeal.S64x128, .f32⟩ : BufTy).Contents (Elt Ideal))
    (w1 : (⟨Cert.ReferenceIdeal.S128x128, .f32⟩ : BufTy).Contents (Elt Ideal))
    (b1 : (⟨Cert.ReferenceIdeal.S128, .f32⟩ : BufTy).Contents (Elt Ideal))
    (w2 : (⟨Cert.ReferenceIdeal.S128x1, .f32⟩ : BufTy).Contents (Elt Ideal))
    (b2 : (⟨Cert.ReferenceIdeal.S1, .f32⟩ : BufTy).Contents (Elt Ideal)) :
    headSpec p w1 (shapeCast Cert.KernelIdeal.S1x128 b1 Cert.KernelIdeal.Facts₀.shapeCasts_S128_S1x128) w2
        (shapeCast Cert.KernelIdeal.S1x1 b2 Cert.KernelIdeal.Facts₀.shapeCasts_S1_S1x1)
      = addf (F := Ideal)
          (Host.dotGeneral (φ₁ := .f32) (φ₂ := .f32) Cert.ReferenceIdeal.dot_S64x128_S128x1_S64x1_1_0_0_1_n_n none
            (maximumf
              (addf (Host.dotGeneral (φ₁ := .f32) (φ₂ := .f32) Cert.ReferenceIdeal.dot_S64x128_S128x128_S64x128_1_0_0_1_n_n none p w1)
                (broadcastInDim Cert.ReferenceIdeal.S64x128 ![0, 1] Cert.ReferenceIdeal.Facts₀.bcast_S1x128_S64x128_0_1
                  (broadcastInDim Cert.ReferenceIdeal.S1x128 ![1] Cert.ReferenceIdeal.Facts₀.bcast_S128_S1x128_1 b1)))
              (broadcastInDim Cert.ReferenceIdeal.S64x128 ![] Cert.ReferenceIdeal.Facts₀.bcast_S_S64x128
                (constant Cert.ReferenceIdeal.S_ .f32 0x00000000#32)))
            w2)
          (broadcastInDim Cert.ReferenceIdeal.S64x1 ![0, 1] Cert.ReferenceIdeal.Facts₀.bcast_S1x1_S64x1_0_1
            (broadcastInDim Cert.ReferenceIdeal.S1x1 ![1] Cert.ReferenceIdeal.Facts₀.bcast_S1_S1x1_1 b2)) := by
  funext i
  have hi1 : i 1 = (0 : Fin 1) := Fin.ext (by have h : (i 1).val < 1 := idx2_lt1 i; show (i 1).val = 0; omega)
  simp only [headSpec]
  rw [addf_apply, dot_plain_apply (d := Cert.ReferenceIdeal.dot_S64x128_S128x1_S64x1_1_0_0_1_n_n) rfl, bcast_vec_rows_apply, hi1,
    shapeCast_a_1a_apply b2 _ 0 0]
  refine congrArg (· + b2 (ix1 0)) (Finset.sum_congr rfl fun k _ => ?_)
  rw [maximumf_apply, addf_apply, dot_plain_apply (d := Cert.ReferenceIdeal.dot_S64x128_S128x128_S64x128_1_0_0_1_n_n) rfl,
    bcast_vec_rows_apply, zeros_apply, shapeCast_a_1a_apply b1 _ 0 k]

end Cert.Val
-- ==== Proof.Ref.RefImports.lean ====
import proofs.«420580_j29025388986926_1_alg».proof.Proof.Gen.ReferenceIdeal.Run
import proofs.«420580_j29025388986926_1_alg».proof.Proof.Gen.ReferenceIdeal.Read
-- ==== Proof.Val.Glue.lean ====
import proofs.«420580_j29025388986926_1_alg».proof.Proof.KI.Frame
import proofs.«420580_j29025388986926_1_alg».proof.Proof.Val.Lin0
import proofs.«420580_j29025388986926_1_alg».proof.Proof.Val.Lin1
import proofs.«420580_j29025388986926_1_alg».proof.Proof.Val.Lin3
import proofs.«420580_j29025388986926_1_alg».proof.Proof.Val.Lin4
import proofs.«420580_j29025388986926_1_alg».proof.Proof.Val.Comb2
import proofs.«420580_j29025388986926_1_alg».proof.Proof.Val.Comb5
import proofs.«420580_j29025388986926_1_alg».proof.Proof.Val.Head7
import proofs.«420580_j29025388986926_1_alg».proof.Proof.Val.Pool6
import proofs.«420580_j29025388986926_1_alg».proof.Proof.Val.PoolMath
import proofs.«420580_j29025388986926_1_alg».proof.Proof.Val.LayerMath
import proofs.«420580_j29025388986926_1_alg».proof.Proof.Ref.RefImports

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Cert.ReferenceIdeal.Read

section Stretches

set_option maxHeartbeats 4000000 in
theorem stretch_agg0p {F : FTy → Type} [FloatOps F] (W : Valuation τ sig (Elt F)) (x0 x1 x13)
    (h0 : W (Proc.devRef .tc main_v0) = val_main_v4 (F := F) x0 x1) (h1 : W (Proc.devRef .tc main_arg13) = x13) :
    StableHlo.after (hostOps2 (F := F)) W (Proc.devRef .tc main_v50) = val_main_v49 (F := F) x0 x1 x13 := by
  after_results_simp
  rw [h0, h1]
  rfl

set_option maxHeartbeats 4000000 in
theorem stretch_agg0r {F : FTy → Type} [FloatOps F] (W : Valuation τ sig (Elt F)) (x0 x3 x14)
    (h0 : W (Proc.devRef .tc main_v1) = val_main_v57 (F := F) x0 x3) (h1 : W (Proc.devRef .tc main_arg14) = x14) :
    StableHlo.after (hostOps2 (F := F)) W (Proc.devRef .tc main_v99) = val_main_v102 (F := F) x0 x3 x14 := by
  after_results_simp
  rw [h0, h1]
  rfl

set_option maxHeartbeats 4000000 in
theorem stretch_agg1p {F : FTy → Type} [FloatOps F] (W : Valuation τ sig (Elt F)) (x0 x1 x2 x3 x4 x5 x13 x14)
    (h0 : W (Proc.devRef .tc main_v103) = val_main_v112 (F := F) x0 x1 x2 x3 x4 x5 x13 x14) (h1 : W (Proc.devRef .tc main_arg13) = x13) :
    StableHlo.after (hostOps5 (F := F)) W (Proc.devRef .tc main_v153) = val_main_v157 (F := F) x0 x1 x2 x3 x4 x5 x13 x14 := by
  after_results_simp
  rw [h0, h1]
  rfl

set_option maxHeartbeats 4000000 in
theorem stretch_agg1r {F : FTy → Type} [FloatOps F] (W : Valuation τ sig (Elt F)) (x0 x1 x2 x3 x4 x7 x13 x14)
    (h0 : W (Proc.devRef .tc main_v104) = val_main_v165 (F := F) x0 x1 x2 x3 x4 x7 x13 x14) (h1 : W (Proc.devRef .tc main_arg14) = x14) :
    StableHlo.after (hostOps5 (F := F)) W (Proc.devRef .tc main_v202) = val_main_v210 (F := F) x0 x1 x2 x3 x4 x7 x13 x14 := by
  after_results_simp
  rw [h0, h1]
  rfl

set_option maxHeartbeats 4000000 in
theorem stretch_mean {F : FTy → Type} [FloatOps F] (W : Valuation τ sig (Elt F)) (x0 x1 x2 x3 x4 x5 x6 x7 x8 x13 x14 x15)
    (h0 : W (Proc.devRef .tc main_v213) = val_main_v222 (F := F) x15) (h1 : W (Proc.devRef .tc main_v214) = val_main_v218 (F := F) x0 x1 x2 x3 x4 x5 x6 x7 x8 x13 x14 x15) :
    StableHlo.after (hostOps7 (F := F)) W (Proc.devRef .tc main_v219) = val_main_v227 (F := F) x0 x1 x2 x3 x4 x5 x6 x7 x8 x13 x14 x15 := by
  after_results_simp
  rw [h0, h1]
  rfl

end Stretches

variable (m : (ℓ : Loc nD τ sig) → Buf (Elt Ideal) ℓ) (c : Dev nD)

abbrev argAt (b : Ref sig .tc) : Buf (Elt Ideal) ((c : Thread nD τ).loc b) := m ((c : Thread nD τ).loc b)

theorem val_zp0 : memZp0 m c (Proc.devRef .tc main_v0) = val_main_v4 (F := Ideal) (argAt m c main_arg0) (argAt m c main_arg1) :=
  (exitAt0 m c 2).trans ((lin0_final (tcView (memLaunch m)) c).trans rfl)

theorem val_zr0 : memZr0 m c (Proc.devRef .tc main_v1) = val_main_v57 (F := Ideal) (argAt m c main_arg0) (argAt m c main_arg3) := by
  refine (exitAt1 m c 2).trans ((lin1_final (tcView (memZp0 m)) c).trans ?_)
  rw [show tcView (memZp0 m) c main_arg0 = argAt m c main_arg0 from launch_memZp0 m c main_arg0 (by decide),
    show tcView (memZp0 m) c main_arg3 = argAt m c main_arg3 from launch_memZp0 m c main_arg3 (by decide)]
  rfl

theorem val_zp0' : memZr0 m c (Proc.devRef .tc main_v0) = val_main_v4 (F := Ideal) (argAt m c main_arg0) (argAt m c main_arg1) :=
  (keep1 m c main_v0 (by decide)).trans (val_zp0 m c)

theorem val_agg0p : memAgg0 m c (Proc.devRef .tc main_v50) = val_main_v49 (F := Ideal) (argAt m c main_arg0) (argAt m c main_arg1) (argAt m c main_arg13) :=
  stretch_agg0p (memZr0 m c) _ _ _ (val_zp0' m c) (launch_memZr0 m c main_arg13 (by decide))

theorem val_agg0r : memAgg0 m c (Proc.devRef .tc main_v99) = val_main_v102 (F := Ideal) (argAt m c main_arg0) (argAt m c main_arg3) (argAt m c main_arg14) :=
  stretch_agg0r (memZr0 m c) _ _ _ (val_zr0 m c) (launch_memZr0 m c main_arg14 (by decide))

theorem val_b0p : memAgg0 m c (Proc.devRef .tc main_v100) = shapeCast S1x128 (argAt m c main_arg2) shapeCasts_S128_S1x128 := by
  show StableHlo.after (hostOps2 (F := Ideal)) (memZr0 m c) (Proc.devRef .tc main_v100) = _
  after_results_simp
  rw [launch_memZr0 m c main_arg2 (by decide)]
  rfl

theorem val_b0r : memAgg0 m c (Proc.devRef .tc main_v101) = shapeCast S1x128 (argAt m c main_arg4) shapeCasts_S128_S1x128 := by
  show StableHlo.after (hostOps2 (F := Ideal)) (memZr0 m c) (Proc.devRef .tc main_v101) = _
  after_results_simp
  rw [launch_memZr0 m c main_arg4 (by decide)]
  rfl

theorem val_h1 : memH1 m c (Proc.devRef .tc main_v102) = val_main_v107 (F := Ideal) (argAt m c main_arg0) (argAt m c main_arg1) (argAt m c main_arg2) (argAt m c main_arg3) (argAt m c main_arg4) (argAt m c main_arg13) (argAt m c main_arg14) := by
  refine (exitAt2 m c 4).trans ((comb2_final (tcView (memAgg0 m)) c).trans ?_)
  rw [show tcView (memAgg0 m) c main_v50 = _ from val_agg0p m c, show tcView (memAgg0 m) c main_v99 = _ from val_agg0r m c,
    show tcView (memAgg0 m) c main_v100 = _ from val_b0p m c, show tcView (memAgg0 m) c main_v101 = _ from val_b0r m c]
  exact (Cert.Val.comb_eq _ _ _ _).trans rfl

theorem val_zp1 : memZp1 m c (Proc.devRef .tc main_v103) = val_main_v112 (F := Ideal) (argAt m c main_arg0) (argAt m c main_arg1) (argAt m c main_arg2) (argAt m c main_arg3) (argAt m c main_arg4) (argAt m c main_arg5) (argAt m c main_arg13) (argAt m c main_arg14) := by
  refine (exitAt3 m c 2).trans ((lin3_final (tcView (memH1 m)) c).trans ?_)
  rw [show tcView (memH1 m) c main_v102 = _ from val_h1 m c,
    show tcView (memH1 m) c main_arg5 = argAt m c main_arg5 from launch_memH1 m c main_arg5 (by decide)]
  rfl

theorem val_h1' : memZp1 m c (Proc.devRef .tc main_v102) = val_main_v107 (F := Ideal) (argAt m c main_arg0) (argAt m c main_arg1) (argAt m c main_arg2) (argAt m c main_arg3) (argAt m c main_arg4) (argAt m c main_arg13) (argAt m c main_arg14) :=
  (keep3 m c main_v102 (by decide)).trans (val_h1 m c)

theorem val_zr1 : memZr1 m c (Proc.devRef .tc main_v104) = val_main_v165 (F := Ideal) (argAt m c main_arg0) (argAt m c main_arg1) (argAt m c main_arg2) (argAt m c main_arg3) (argAt m c main_arg4) (argAt m c main_arg7) (argAt m c main_arg13) (argAt m c main_arg14) := by
  refine (exitAt4 m c 2).trans ((lin4_final (tcView (memZp1 m)) c).trans ?_)
  rw [show tcView (memZp1 m) c main_v102 = _ from val_h1' m c,
    show tcView (memZp1 m) c main_arg7 = argAt m c main_arg7 from launch_memZp1 m c main_arg7 (by decide)]
  rfl

theorem val_zp1' : memZr1 m c (Proc.devRef .tc main_v103) = val_main_v112 (F := Ideal) (argAt m c main_arg0) (argAt m c main_arg1) (argAt m c main_arg2) (argAt m c main_arg3) (argAt m c main_arg4) (argAt m c main_arg5) (argAt m c main_arg13) (argAt m c main_arg14) :=
  (keep4 m c main_v103 (by decide)).trans (val_zp1 m c)

theorem val_agg1p : memAgg1 m c (Proc.devRef .tc main_v153) = val_main_v157 (F := Ideal) (argAt m c main_arg0) (argAt m c main_arg1) (argAt m c main_arg2) (argAt m c main_arg3) (argAt m c main_arg4) (argAt m c main_arg5) (argAt m c main_arg13) (argAt m c main_arg14) :=
  stretch_agg1p (memZr1 m c) _ _ _ _ _ _ _ _ (val_zp1' m c) (launch_memZr1 m c main_arg13 (by decide))

theorem val_agg1r : memAgg1 m c (Proc.devRef .tc main_v202) = val_main_v210 (F := Ideal) (argAt m c main_arg0) (argAt m c main_arg1) (argAt m c main_arg2) (argAt m c main_arg3) (argAt m c main_arg4) (argAt m c main_arg7) (argAt m c main_arg13) (argAt m c main_arg14) :=
  stretch_agg1r (memZr1 m c) _ _ _ _ _ _ _ _ (val_zr1 m c) (launch_memZr1 m c main_arg14 (by decide))

theorem val_b1p : memAgg1 m c (Proc.devRef .tc main_v203) = shapeCast S1x128 (argAt m c main_arg6) shapeCasts_S128_S1x128 := by
  show StableHlo.after (hostOps5 (F := Ideal)) (memZr1 m c) (Proc.devRef .tc main_v203) = _
  after_results_simp
  rw [launch_memZr1 m c main_arg6 (by decide)]
  rfl

theorem val_b1r : memAgg1 m c (Proc.devRef .tc main_v204) = shapeCast S1x128 (argAt m c main_arg8) shapeCasts_S128_S1x128 := by
  show StableHlo.after (hostOps5 (F := Ideal)) (memZr1 m c) (Proc.devRef .tc main_v204) = _
  after_results_simp
  rw [launch_memZr1 m c main_arg8 (by decide)]
  rfl

theorem val_h2 : memH2 m c (Proc.devRef .tc main_v205) = val_main_v215 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg13) (argAt m c main_arg14) := by
  refine (exitAt5 m c 4).trans ((comb5_final (tcView (memAgg1 m)) c).trans ?_)
  rw [show tcView (memAgg1 m) c main_v153 = _ from val_agg1p m c, show tcView (memAgg1 m) c main_v202 = _ from val_agg1r m c,
    show tcView (memAgg1 m) c main_v203 = _ from val_b1p m c, show tcView (memAgg1 m) c main_v204 = _ from val_b1r m c]
  exact (Cert.Val.comb_eq _ _ _ _).trans rfl

theorem val_oh : memOneHot m c (Proc.devRef .tc main_v212) = Cert.Val.oneHot (argAt m c main_arg15) := by
  show StableHlo.after (hostOps6 (F := Ideal)) (memH2 m c) (Proc.devRef .tc main_v212) = _
  after_results_simp
  rw [launch_memH2 m c main_arg15 (by decide)]
  rfl

theorem val_cnt : memOneHot m c (Proc.devRef .tc main_v213) = val_main_v222 (F := Ideal) (argAt m c main_arg15) := by
  show StableHlo.after (hostOps6 (F := Ideal)) (memH2 m c) (Proc.devRef .tc main_v213) = _
  after_results_simp
  rw [launch_memH2 m c main_arg15 (by decide)]
  exact (Cert.Val.counts_eq (argAt m c main_arg15)).trans rfl

theorem val_h2' : memOneHot m c (Proc.devRef .tc main_v205) = val_main_v215 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg13) (argAt m c main_arg14) :=
  (keep_hostOps6 m c main_v205 (by decide)).trans (val_h2 m c)

theorem val_psum : memPool m c (Proc.devRef .tc main_v214) = val_main_v218 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg13) (argAt m c main_arg14) (argAt m c main_arg15) := by
  refine (exitAt6 m c 2).trans ((pool6_final (tcView (memOneHot m)) c).trans ?_)
  rw [show tcView (memOneHot m) c main_v212 = _ from val_oh m c, show tcView (memOneHot m) c main_v205 = _ from val_h2' m c]
  exact (Cert.Val.poolSum_eq (argAt m c main_arg15) _).trans rfl

theorem val_cnt' : memPool m c (Proc.devRef .tc main_v213) = val_main_v222 (F := Ideal) (argAt m c main_arg15) :=
  (keep6 m c main_v213 (by decide)).trans (val_cnt m c)

theorem val_mean : memMean m c (Proc.devRef .tc main_v219) = val_main_v227 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg13) (argAt m c main_arg14) (argAt m c main_arg15) :=
  stretch_mean (memPool m c) _ _ _ _ _ _ _ _ _ _ _ _ (val_cnt' m c) (val_psum m c)

theorem val_bh1 : memMean m c (Proc.devRef .tc main_v220) = shapeCast S1x128 (argAt m c main_arg10) shapeCasts_S128_S1x128 := by
  show StableHlo.after (hostOps7 (F := Ideal)) (memPool m c) (Proc.devRef .tc main_v220) = _
  after_results_simp
  rw [launch_memPool m c main_arg10 (by decide)]
  rfl

theorem val_bh2 : memMean m c (Proc.devRef .tc main_v221) = shapeCast S1x1 (argAt m c main_arg12) shapeCasts_S1_S1x1 := by
  show StableHlo.after (hostOps7 (F := Ideal)) (memPool m c) (Proc.devRef .tc main_v221) = _
  after_results_simp
  rw [launch_memPool m c main_arg12 (by decide)]
  rfl

theorem val_out : memOut m c (Proc.devRef .tc main_v222) = val_main_v236 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) := by
  refine (exitAt7 m c 5).trans ((head7_final (tcView (memMean m)) c).trans ?_)
  rw [show tcView (memMean m) c main_v219 = _ from val_mean m c,
    show tcView (memMean m) c main_arg9 = argAt m c main_arg9 from launch_memMean m c main_arg9 (by decide),
    show tcView (memMean m) c main_v220 = _ from val_bh1 m c,
    show tcView (memMean m) c main_arg11 = argAt m c main_arg11 from launch_memMean m c main_arg11 (by decide),
    show tcView (memMean m) c main_v221 = _ from val_bh2 m c]
  exact (Cert.Val.head_eq _ _ _ _ _).trans rfl

/-- The run ends without a fault, its result array at the reference's last stage and every unwritten buffer as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v222) = val_main_v236 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15)
      ∧ ∀ b : Ref sig .tc, ¬ (Proc.devRef .tc b : DevRef τ sig).isScoped → b ∉ wr_memOut →
        r.2.mem ((c.tc : Thread nD τ).loc b) = m ((c.tc : Thread nD τ).loc b)) :=
  (θ_run defs _ _).mono (fun r h c =>
    ⟨(h c _ (mem_uc main_v222 (by decide))).trans (val_out m c),
     fun b hs hb => (h c _ (mem_uc b hs)).trans (launch_memOut m c b hb)⟩)
    (run_all m ρ)

end Cert.KernelIdeal.Hand

end
-- ==== Proof.lean ====
/- Each frame is read off one run in which no item of the main function writes an argument; the value is the reference's last stage. -/
import proofs.«420580_j29025388986926_1_alg».proof.Defs
import proofs.«420580_j29025388986926_1_alg».proof.Proof.Gen.Kernel
import proofs.«420580_j29025388986926_1_alg».proof.Proof.Gen.KernelIdeal
import proofs.«420580_j29025388986926_1_alg».proof.Proof.Gen.ReferenceIdeal
import proofs.«420580_j29025388986926_1_alg».proof.Proof.Gen.Pre_finite_inputs
import proofs.«420580_j29025388986926_1_alg».proof.Proof.K.Frame
import proofs.«420580_j29025388986926_1_alg».proof.Proof.Val.Glue
import Idealize.ShloMosaic.Adequacy
import Idealize.ShloMosaic.Init

noncomputable section

namespace Cert.Proof

open Idealize.ShloMosaic Idealize.SL.Sem

theorem frame_kernel : Cert.frame_Kernel := fun m ρ _ =>
  (θ_run Cert.Kernel.defs _ _).mono (fun r h c => by
    repeat' apply And.intro
    all_goals exact h c _ (by decide) (by decide)) (Cert.Kernel.Hand.unwritten_kept m ρ)

theorem frame_kernelIdeal : Cert.frame_KernelIdeal := fun m ρ _ =>
  (θ_run Cert.KernelIdeal.defs _ _).mono (fun r h c => by
    repeat' apply And.intro
    all_goals exact h c _ (by decide) (by decide)) (Cert.KernelIdeal.Hand.unwritten_kept m ρ)

theorem frame_referenceIdeal : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m g m' g' _ hagree
  refine ⟨_, (θ_run Cert.KernelIdeal.defs _ _).mono (fun r h c => ⟨(h c).1, ?_⟩) (Cert.KernelIdeal.Hand.run_value m g), ?_⟩
  · repeat' apply And.intro
    all_goals exact (h c).2 _ (by decide) (by decide)
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6, h7, h8, h9, h10, h11, h12, h13, h14, h15⟩ := hagree c
  rw [Cert.ReferenceIdeal.Read.val_main_v236_eq, h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
